-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S50000 : Shape := ⟨1, ![50000]⟩
abbrev S64x32 : Shape := ⟨2, ![64, 32]⟩
abbrev S128x128 : Shape := ⟨2, ![128, 128]⟩
abbrev S128 : Shape := ⟨1, ![128]⟩
abbrev S160x160 : Shape := ⟨2, ![160, 160]⟩
abbrev S160 : Shape := ⟨1, ![160]⟩
abbrev S160x1 : Shape := ⟨2, ![160, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_
  bcast_S_S160x1 : S_.BroadcastsInDim S160x1 (![] : Fin 0 → Fin S160x1.rank)
  reducesTo_S160x1_S_d0_1 : S160x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1 .f32) (main_v48 : IVec S_ 1) (main_v49 : FVec F S160x1 .f32) (main_v50 : FVec F S160x1 .f32) : IVec S_ 1 :=
  let main_v51 : IVec S160x1 1 := cmpf .olt main_v49 main_v50
  let main_c_19 : IVec S_ 1 := constantI S_ 1 1#1
  let main_v52 : IVec S_ 1 := (fun x v => Host.reduce IntOp.andi x v reducesTo_S160x1_S_d0_1 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg10 : FVec F S160 .f32) (main_arg11 : FVec F S160x160 .f32) (main_arg12 : FVec F S160 .f32) (main_arg13 : FVec F S160x1 .f32) (main_arg14 : FVec F S1 .f32) (main_v33 : IVec S_ 1) : IVec S_ 1 :=
  let main_v34 : FVec F S160 .f32 := Host.absf main_arg10
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  let main_v39 : FVec F S160x160 .f32 := Host.absf main_arg11
  let main_cst_14 : FVec F S_ .f32 := constant S_ .f32 0x7F800000#32
  let main_v40 : FVec F S160x160 .f32 := broadcastInDim S160x160 ![] bcast_S_S160x160 main_cst_14
  let main_v41 : IVec S160x160 1 := cmpf .olt main_v39 main_v40
  let main_c_15 : IVec S_ 1 := constantI S_ 1 1#1
  let main_v42 : IVec S_ 1 := (fun x v => Host.reduce IntOp.andi x v reducesTo_S160x160_S_d0_1 h_S_) main_v41 main_c_15
  let main_v43 : IVec S_ 1 := andi main_v38 main_v42
  let main_v44 : FVec F S160 .f32 := Host.absf main_arg12
  let main_cst_16 : FVec F S_ .f32 := constant S_ .f32 0x7F800000#32
  let main_v45 : FVec F S160 .f32 := broadcastInDim S160 ![] bcast_S_S160 main_cst_16
  let main_v46 : IVec S160 1 := cmpf .olt main_v44 main_v45
  let main_c_17 : IVec S_ 1 := constantI S_ 1 1#1
  let main_v47 : IVec S_ 1 := (fun x v => Host.reduce IntOp.andi x v reducesTo_S160_S_d0 h_S_) main_v46 main_c_17
  let main_v48 : IVec S_ 1 := andi main_v43 main_v47
  let main_v49 : FVec F S160x1 .f32 := Host.absf main_arg13
  let main_cst_18 : FVec F S_ .f32 := constant S_ .f32 0x7F800000#32
  let main_v50 : FVec F S160x1 .f32 := broadcastInDim S160x1 ![] bcast_S_S160x1 main_cst_18
  fn_part3 (F := F) main_arg14 main_v48 main_v49 main_v50

def fn_part1 {F : FTy → Type} [FloatOps F] (main_arg7 : FVec F S128x128 .f32) (main_arg8 : FVec F S128 .f32) (main_arg9 : FVec F S160x160 .f32) (main_arg10 : FVec F S160 .f32) (main_arg11 : FVec F S160x160 .f32) (main_arg12 : FVec F S160 .f32) (main_arg13 : FVec F S160x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S160x160 .f32 := Host.absf main_arg9
  let main_cst_10 : FVec F S_ .f32 := constant S_ .f32 0x7F800000#32
  let main_v30 : FVec F S160x160 .f32 := broadcastInDim S160x160 ![] bcast_S_S160x160 main_cst_10
  let main_v31 : IVec S160x160 1 := cmpf .olt main_v29 main_v30
  let main_c_11 : IVec S_ 1 := constantI S_ 1 1#1
  let main_v32 : IVec S_ 1 := (fun x v => Host.reduce IntOp.andi x v reducesTo_S160x160_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S50000x128 .f32) (main_arg1 : IVec S1600000 32) (main_arg2 : IVec S1600000 32) (main_arg3 : IVec S50000 32) (main_arg4 : FVec F S64x32 .f32) (main_arg5 : FVec F S128x128 .f32) (main_arg6 : FVec F S128 .f32) (main_arg7 : FVec F S128x128 .f32) (main_arg8 : FVec F S128 .f32) (main_arg9 : FVec F S160x160 .f32) (main_arg10 : FVec F S160 .f32) (main_arg11 : FVec F S160x160 .f32) (main_arg12 : FVec F S160 .f32) (main_arg13 : FVec F S160x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x32 .f32 := Host.absf main_arg4
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_v13 main_v16
-- ==== Kernel.lean ====
abbrev S50000x128 : Shape := ⟨2, ![50000, 128]⟩
abbrev S1600000 : Shape := ⟨1, ![1600000]⟩
abbrev S50000 : Shape := ⟨1, ![50000]⟩
abbrev S64x32 : Shape := ⟨2, ![64, 32]⟩
abbrev S128x128 : Shape := ⟨2, ![128, 128]⟩
abbrev S128 : Shape := ⟨1, ![128]⟩
abbrev S160x160 : Shape := ⟨2, ![160, 160]⟩
abbrev S160 : Shape := ⟨1, ![160]⟩
abbrev S160x1 : Shape := ⟨2, ![160, 1]⟩
abbrev S1 : Shape := ⟨1, ![1]⟩
abbrev S_ : Shape := ⟨0, ![]⟩
abbrev S1600000x1 : Shape := ⟨2, ![1600000, 1]⟩
abbrev S50000x1 : Shape := ⟨2, ![50000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S64x128 : Shape := ⟨2, ![64, 128]⟩
abbrev S64x1 : Shape := ⟨2, ![64, 1]⟩
abbrev S5000x64 : Shape := ⟨2, ![5000, 64]⟩
abbrev S64x160 : Shape := ⟨2, ![64, 160]⟩
abbrev S1x160 : Shape := ⟨2, ![1, 160]⟩
abbrev S1x1 : Shape := ⟨2, ![1, 1]⟩

abbrev nBuf : Space → Nat
  | .hbm => 90
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S50000, .i32⟩
  | .hbm, ⟨4, _⟩ => ⟨S64x32, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S160x160, .f32⟩
  | .hbm, ⟨10, _⟩ => ⟨S160, .f32⟩
  | .hbm, ⟨11, _⟩ => ⟨S160x160, .f32⟩
  | .hbm, ⟨12, _⟩ => ⟨S160, .f32⟩
  | .hbm, ⟨13, _⟩ => ⟨S160x1, .f32⟩
  | .hbm, ⟨14, _⟩ => ⟨S1, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S50000, .f32⟩
  | .hbm, ⟨19, _⟩ => ⟨S1600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S50000x128, .f32⟩
  | .hbm, ⟨46, _⟩ => ⟨S1600000x1, .i32⟩
  | .hbm, ⟨47, _⟩ => ⟨S50000x128, .f32⟩
  | .hbm, ⟨48, _⟩ => ⟨S50000x1, .f32⟩
  | .hbm, ⟨49, _⟩ => ⟨S1x128, .f32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S50000x128, .f32⟩
  | .hbm, ⟨64, _⟩ => ⟨S1600000x1, .i32⟩
  | .hbm, ⟨65, _⟩ => ⟨S50000x128, .f32⟩
  | .hbm, ⟨66, _⟩ => ⟨S50000x1, .f32⟩
  | .hbm, ⟨67, _⟩ => ⟨S1x128, .f32⟩
  | .hbm, ⟨68, _⟩ => ⟨S50000x128, .f32⟩
  | .hbm, ⟨69, _⟩ => ⟨S50000x1, .i32⟩
  | .hbm, ⟨70, _⟩ => ⟨S64x128, .f32⟩
  | .hbm, ⟨71, _⟩ => ⟨S64x160, .f32⟩
  | .hbm, ⟨72, _⟩ => ⟨S64x160, .f32⟩
  | .hbm, ⟨73, _⟩ => ⟨S1x160, .f32⟩
  | .hbm, ⟨74, _⟩ => ⟨S64x160, .f32⟩
  | .hbm, ⟨75, _⟩ => ⟨S64x160, .f32⟩
  | .hbm, ⟨76, _⟩ => ⟨S_, .f32⟩
  | .hbm, ⟨77, _⟩ => ⟨S64x160, .f32⟩
  | .hbm, ⟨78, _⟩ => ⟨S64x160, .f32⟩
  | .hbm, ⟨79, _⟩ => ⟨S64x160, .f32⟩
  | .hbm, ⟨80, _⟩ => ⟨S1x160, .f32⟩
  | .hbm, ⟨81, _⟩ => ⟨S64x160, .f32⟩
  | .hbm, ⟨82, _⟩ => ⟨S64x160, .f32⟩
  | .hbm, ⟨83, _⟩ => ⟨S_, .f32⟩
  | .hbm, ⟨84, _⟩ => ⟨S64x160, .f32⟩
  | .hbm, ⟨85, _⟩ => ⟨S64x160, .f32⟩
  | .hbm, ⟨86, _⟩ => ⟨S64x1, .f32⟩
  | .hbm, ⟨87, _⟩ => ⟨S1x1, .f32⟩
  | .hbm, ⟨88, _⟩ => ⟨S64x1, .f32⟩
  | .hbm, ⟨89, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .i32⟩
  | .local _ .vmem, ⟨31, _⟩ => ⟨S5000x1, .i32⟩
  | .local _ .vmem, ⟨32, _⟩ => ⟨S64x128, .f32⟩
  | .local _ .vmem, ⟨33, _⟩ => ⟨S64x128, .f32⟩
  | .local _ .vmem, ⟨34, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call0_cst : Ref sig .tc := ⟨.hbm, 76, rfl⟩
abbrev main_call0_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_scratch0 : Ref sig .tc := ⟨.vmem, 33, rfl⟩
abbrev cc4_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S5000x64_d1_w32 : S5000x64.Iotas .tc 32 [1]
  broadcasts_S5000x1_S5000x64 : S5000x1.Broadcasts S5000x64
  natLt_1_32 : 1 < 32
  broadcasts_S64x1_S64x128 : S64x1.Broadcasts S64x128
  concatenates_S64x128_S64x32_S64x160_d1 : Shape.Concatenates [S64x128, S64x32] S64x160 1
  bcast_S160_S1x160_1 : S160.BroadcastsInDim S1x160 (![1] : Fin 1 → Fin S1x160.rank)
  bcast_S1x160_S64x160_0_1 : S1x160.BroadcastsInDim S64x160 (![0, 1] : Fin 2 → Fin S64x160.rank)
  bcast_S_S64x160 : S_.BroadcastsInDim S64x160 (![] : Fin 0 → Fin S64x160.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x160_S160x160_S64x160_1_0_0_1_n_n_wf : DotDims.WF S64x160 S160x160 S64x160 [1] [0] [0] [1] [] []
  dot_S64x160_S160x1_S64x1_1_0_0_1_n_n_wf : DotDims.WF S64x160 S160x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .i32 = 32 ∨ (Rect.block (s := S50000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x160_S160x160_S64x160_1_0_0_1_n_n : DotDims S64x160 S160x160 S64x160 where
  lhsContracting := [1]
  rhsContracting := [0]
  lhsNonContracting := [0]
  rhsNonContracting := [1]
  lhsBatch := []
  rhsBatch := []
  wf := dot_S64x160_S160x160_S64x160_1_0_0_1_n_n_wf
def dot_S64x160_S160x1_S64x1_1_0_0_1_n_n : DotDims S64x160 S160x1 S64x1 where
  lhsContracting := [1]
  rhsContracting := [0]
  lhsNonContracting := [0]
  rhsNonContracting := [1]
  lhsBatch := []
  rhsBatch := []
  wf := dot_S64x160_S160x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S1600000 : Shape := ⟨1, ![1600000]⟩
abbrev S50000 : Shape := ⟨1, ![50000]⟩
abbrev S64x32 : Shape := ⟨2, ![64, 32]⟩
abbrev S128x128 : Shape := ⟨2, ![128, 128]⟩
abbrev S128 : Shape := ⟨1, ![128]⟩
abbrev S160x160 : Shape := ⟨2, ![160, 160]⟩
abbrev S160 : Shape := ⟨1, ![160]⟩
abbrev S160x1 : Shape := ⟨2, ![160, 1]⟩
abbrev S1 : Shape := ⟨1, ![1]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x160 : Shape := ⟨2, ![64, 160]⟩
abbrev S1x160 : Shape := ⟨2, ![1, 160]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S50000, .i32⟩
  | .hbm, ⟨4, _⟩ => ⟨S64x32, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S160x160, .f32⟩
  | .hbm, ⟨10, _⟩ => ⟨S160, .f32⟩
  | .hbm, ⟨11, _⟩ => ⟨S160x160, .f32⟩
  | .hbm, ⟨12, _⟩ => ⟨S160, .f32⟩
  | .hbm, ⟨13, _⟩ => ⟨S160x1, .f32⟩
  | .hbm, ⟨14, _⟩ => ⟨S1, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S50000, .f32⟩
  | .hbm, ⟨19, _⟩ => ⟨S1600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000x128, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S50000x128, .f32⟩
  | .hbm, ⟨48, _⟩ => ⟨S1600000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S50000x128, .f32⟩
  | .hbm, ⟨74, _⟩ => ⟨S1600000x1, .i32⟩
  | .hbm, ⟨75, _⟩ => ⟨S50000x128, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S64x128, .f32⟩
  | .hbm, ⟨87, _⟩ => ⟨S50000x1, .i32⟩
  | .hbm, ⟨88, _⟩ => ⟨S64x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S64, .f32⟩
  | .hbm, ⟨93, _⟩ => ⟨S50000x1, .i32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x128, .f32⟩
  | .hbm, ⟨100, _⟩ => ⟨S64x128, .f32⟩
  | .hbm, ⟨101, _⟩ => ⟨S64x160, .f32⟩
  | .hbm, ⟨102, _⟩ => ⟨S64x160, .f32⟩
  | .hbm, ⟨103, _⟩ => ⟨S1x160, .f32⟩
  | .hbm, ⟨104, _⟩ => ⟨S64x160, .f32⟩
  | .hbm, ⟨105, _⟩ => ⟨S64x160, .f32⟩
  | .hbm, ⟨106, _⟩ => ⟨S_, .f32⟩
  | .hbm, ⟨107, _⟩ => ⟨S64x160, .f32⟩
  | .hbm, ⟨108, _⟩ => ⟨S64x160, .f32⟩
  | .hbm, ⟨109, _⟩ => ⟨S64x160, .f32⟩
  | .hbm, ⟨110, _⟩ => ⟨S1x160, .f32⟩
  | .hbm, ⟨111, _⟩ => ⟨S64x160, .f32⟩
  | .hbm, ⟨112, _⟩ => ⟨S64x160, .f32⟩
  | .hbm, ⟨113, _⟩ => ⟨S_, .f32⟩
  | .hbm, ⟨114, _⟩ => ⟨S64x160, .f32⟩
  | .hbm, ⟨115, _⟩ => ⟨S64x160, .f32⟩
  | .hbm, ⟨116, _⟩ => ⟨S64x1, .f32⟩
  | .hbm, ⟨117, _⟩ => ⟨S1x1, .f32⟩
  | .hbm, ⟨118, _⟩ => ⟨S64x1, .f32⟩
  | .hbm, ⟨119, _⟩ => ⟨S64x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call0_cst : Ref sig .tc := ⟨.hbm, 56, rfl⟩
abbrev main_call0_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call1_cst : Ref sig .tc := ⟨.hbm, 82, rfl⟩
abbrev main_call1_v0 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call2_cst : Ref sig .tc := ⟨.hbm, 106, rfl⟩
abbrev main_call2_v0 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call3_cst : Ref sig .tc := ⟨.hbm, 113, rfl⟩
abbrev main_call3_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x32_S64x160_d1 : Shape.Concatenates [S64x128, S64x32] S64x160 1
  bcast_S160_S1x160_1 : S160.BroadcastsInDim S1x160 (![1] : Fin 1 → Fin S1x160.rank)
  bcast_S1x160_S64x160_0_1 : S1x160.BroadcastsInDim S64x160 (![0, 1] : Fin 2 → Fin S64x160.rank)
  bcast_S_S64x160 : S_.BroadcastsInDim S64x160 (![] : Fin 0 → Fin S64x160.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x160_S160x160_S64x160_1_0_0_1_n_n_wf : DotDims.WF S64x160 S160x160 S64x160 [1] [0] [0] [1] [] []
  dot_S64x160_S160x1_S64x1_1_0_0_1_n_n_wf : DotDims.WF S64x160 S160x1 S64x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x160_S160x160_S64x160_1_0_0_1_n_n : DotDims S64x160 S160x160 S64x160 where
  lhsContracting := [1]
  rhsContracting := [0]
  lhsNonContracting := [0]
  rhsNonContracting := [1]
  lhsBatch := []
  rhsBatch := []
  wf := dot_S64x160_S160x160_S64x160_1_0_0_1_n_n_wf
def dot_S64x160_S160x1_S64x1_1_0_0_1_n_n : DotDims S64x160 S160x1 S64x1 where
  lhsContracting := [1]
  rhsContracting := [0]
  lhsNonContracting := [0]
  rhsNonContracting := [1]
  lhsBatch := []
  rhsBatch := []
  wf := dot_S64x160_S160x1_S64x1_1_0_0_1_n_n_wf

class Facts : Prop extends Facts₀ where

variable [Facts]
-- ==== Proof.K.RegLib.lean ====
import proofs.«405441_j33243046871479_1_alg».proof.Proof.Gen.Kernel.Launch
import proofs.«405441_j33243046871479_1_alg».proof.Proof.Gen.Kernel.Skeleton
import proofs.«405441_j33243046871479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen Idealize.ShloMosaic

variable {F : FTy → Type} [FloatOps F]

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rN : Rect S5000x1 := Rect.unit (s := S5000x1) ![0, 0] S5000x1.size inb_S5000x1_S5000x1_0_0
abbrev rB : Rect S1x128 := Rect.unit (s := S1x128) ![0, 0] S1x128.size inb_S1x128_S1x128_0_0

-- The rectangle of the whole shape contains every index.
theorem coverX (p : Vec F S5000x128 .f32) (y : S5000x128.Idx) :
    ∃ pc ∈ ([⟨rX, p⟩] : List (View.Piece (Elt F) S5000x128 .f32)), y ∈ pc.1.set :=
  View.cover_of_tiled [⟨rX, p⟩] S5000x128.size (by rfl) y

end Cert.Kernel.Hand

end
-- ==== Proof.K.Reg0.lean ====
import proofs.«405441_j33243046871479_1_alg».proof.Proof.K.RegLib

noncomputable section

namespace Cert.Kernel.Hand

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S5000x128 .f32) (x1 : Vec F S128x128 .f32) (x2 : Vec F S5000x1 .f32) : Vec F S5000x128 .f32 :=
  View.canon [⟨rX, k0_pay1 (View.ld x0 rX) (View.ld x1 rW) (View.ld x2 rN)⟩]

theorem sound_kernel0 (c : Dev nD) {E i arg1 harg1 arg2 harg2 arg3 harg3 arg4 harg4 x0 x1 x2} (K : PUnit → sProp (MT nD τ sig Unit (Elt F) ℕ (UR sig nD τ) ℕ)) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out0_3 x0 x1 x2)) -∗ K ⟨⟩))
      ⊢ wp frame (wpE (defs₀ (F := F)) Variants.none c none) E (cc0__pre_kernel i arg1 harg1 arg2 harg2 arg3 harg3 arg4 harg4) K := by
  simp only [cc0__pre_kernel_eq_skeleton]; unfold cc0__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (coverX _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by dsimp only [dat0]

theorem before0 (c : Dev nD) (t : Fin cfg0.N) : (∀ d, (dat0 V c).before 0 t d = iblk0 V c 0 t) ∧ (∀ d, (dat0 V c).before 1 t d = iblk0 V c 1 t)
    ∧ ∀ d, (dat0 V c).before 2 t d = iblk0 V c 2 t := by
  refine ⟨?_, ?_, ?_⟩ <;> exact fun d => ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  sl_whnfR [defs₀, Defs.onTc]
  simp only [(before0 V c t).1, (before0 V c t).2.1, (before0 V c t).2.2]
  iintro ⟨HΦ, Ho, ⟨%d0, H0⟩, ⟨%d1, H1⟩, ⟨%d2, H2⟩, ⟨%d3, H3⟩⟩
  iapply (sound_kernel0 c _)
  iframe H0 H1 H2
  isplitl [H3]; · iexists _; iexact H3
  iintro HB
  dsimp only [dat0]
  iframe
  iexact Ho

end Cert.Kernel.Hand

end
-- ==== Proof.K.Reg1.lean ====
import proofs.«405441_j33243046871479_1_alg».proof.Proof.K.RegLib

noncomputable section

namespace Cert.Kernel.Hand

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S5000x128 .f32) (x1 : Vec F S5000x1 .f32) (x2 : Vec F S1x128 .f32) : Vec F S5000x128 .f32 :=
  View.canon [⟨rX, k1_pay1 (View.ld x0 rX) (View.ld x1 rN) (View.ld x2 rB)⟩]

theorem sound_kernel1 (c : Dev nD) {E i arg1 harg1 arg2 harg2 arg3 harg3 arg4 harg4 x0 x1 x2} (K : PUnit → sProp (MT nD τ sig Unit (Elt F) ℕ (UR sig nD τ) ℕ)) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out1_3 x0 x1 x2)) -∗ K ⟨⟩))
      ⊢ wp frame (wpE (defs₀ (F := F)) Variants.none c none) E (cc1__post_kernel i arg1 harg1 arg2 harg2 arg3 harg3 arg4 harg4) K := by
  simp only [cc1__post_kernel_eq_skeleton]; unfold cc1__post_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (coverX _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = out1_3 (iblk1 V c 0 t) (iblk1 V c 1 t) (iblk1 V c 2 t) := by dsimp only [dat1]

theorem before1 (c : Dev nD) (t : Fin cfg1.N) : (∀ d, (dat1 V c).before 0 t d = iblk1 V c 0 t) ∧ (∀ d, (dat1 V c).before 1 t d = iblk1 V c 1 t)
    ∧ ∀ d, (dat1 V c).before 2 t d = iblk1 V c 2 t := by
  refine ⟨?_, ?_, ?_⟩ <;> exact fun d => ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  sl_whnfR [defs₀, Defs.onTc]
  simp only [(before1 V c t).1, (before1 V c t).2.1, (before1 V c t).2.2]
  iintro ⟨HΦ, Ho, ⟨%d0, H0⟩, ⟨%d1, H1⟩, ⟨%d2, H2⟩, ⟨%d3, H3⟩⟩
  iapply (sound_kernel1 c _)
  iframe H0 H1 H2
  isplitl [H3]; · iexists _; iexact H3
  iintro HB
  dsimp only [dat1]
  iframe
  iexact Ho

end Cert.Kernel.Hand

end
-- ==== Proof.K.Reg2.lean ====
import proofs.«405441_j33243046871479_1_alg».proof.Proof.K.RegLib

noncomputable section

namespace Cert.Kernel.Hand

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S5000x128 .f32) (x1 : Vec F S128x128 .f32) (x2 : Vec F S5000x1 .f32) : Vec F S5000x128 .f32 :=
  View.canon [⟨rX, k2_pay1 (View.ld x0 rX) (View.ld x1 rW) (View.ld x2 rN)⟩]

theorem sound_kernel2 (c : Dev nD) {E i arg1 harg1 arg2 harg2 arg3 harg3 arg4 harg4 x0 x1 x2} (K : PUnit → sProp (MT nD τ sig Unit (Elt F) ℕ (UR sig nD τ) ℕ)) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out2_3 x0 x1 x2)) -∗ K ⟨⟩))
      ⊢ wp frame (wpE (defs₀ (F := F)) Variants.none c none) E (cc2__pre_kernel i arg1 harg1 arg2 harg2 arg3 harg3 arg4 harg4) K := by
  simp only [cc2__pre_kernel_eq_skeleton]; unfold cc2__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (coverX _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by dsimp only [dat2]

theorem before2 (c : Dev nD) (t : Fin cfg2.N) : (∀ d, (dat2 V c).before 0 t d = iblk2 V c 0 t) ∧ (∀ d, (dat2 V c).before 1 t d = iblk2 V c 1 t)
    ∧ ∀ d, (dat2 V c).before 2 t d = iblk2 V c 2 t := by
  refine ⟨?_, ?_, ?_⟩ <;> exact fun d => ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  sl_whnfR [defs₀, Defs.onTc]
  simp only [(before2 V c t).1, (before2 V c t).2.1, (before2 V c t).2.2]
  iintro ⟨HΦ, Ho, ⟨%d0, H0⟩, ⟨%d1, H1⟩, ⟨%d2, H2⟩, ⟨%d3, H3⟩⟩
  iapply (sound_kernel2 c _)
  iframe H0 H1 H2
  isplitl [H3]; · iexists _; iexact H3
  iintro HB
  dsimp only [dat2]
  iframe
  iexact Ho

end Cert.Kernel.Hand

end
-- ==== Proof.K.Reg3.lean ====
import proofs.«405441_j33243046871479_1_alg».proof.Proof.K.RegLib

noncomputable section

namespace Cert.Kernel.Hand

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_3 (x0 : Vec F S5000x128 .f32) (x1 : Vec F S5000x1 .f32) (x2 : Vec F S1x128 .f32) : Vec F S5000x128 .f32 :=
  View.canon [⟨rX, k3_pay1 (View.ld x0 rX) (View.ld x1 rN) (View.ld x2 rB)⟩]

theorem sound_kernel3 (c : Dev nD) {E i arg1 harg1 arg2 harg2 arg3 harg3 arg4 harg4 x0 x1 x2} (K : PUnit → sProp (MT nD τ sig Unit (Elt F) ℕ (UR sig nD τ) ℕ)) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out3_3 x0 x1 x2)) -∗ K ⟨⟩))
      ⊢ wp frame (wpE (defs₀ (F := F)) Variants.none c none) E (cc3__post_kernel i arg1 harg1 arg2 harg2 arg3 harg3 arg4 harg4) K := by
  simp only [cc3__post_kernel_eq_skeleton]; unfold cc3__post_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (coverX _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = out3_3 (iblk3 V c 0 t) (iblk3 V c 1 t) (iblk3 V c 2 t) := by dsimp only [dat3]

theorem before3 (c : Dev nD) (t : Fin cfg3.N) : (∀ d, (dat3 V c).before 0 t d = iblk3 V c 0 t) ∧ (∀ d, (dat3 V c).before 1 t d = iblk3 V c 1 t)
    ∧ ∀ d, (dat3 V c).before 2 t d = iblk3 V c 2 t := by
  refine ⟨?_, ?_, ?_⟩ <;> exact fun d => ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  sl_whnfR [defs₀, Defs.onTc]
  simp only [(before3 V c t).1, (before3 V c t).2.1, (before3 V c t).2.2]
  iintro ⟨HΦ, Ho, ⟨%d0, H0⟩, ⟨%d1, H1⟩, ⟨%d2, H2⟩, ⟨%d3, H3⟩⟩
  iapply (sound_kernel3 c _)
  iframe H0 H1 H2
  isplitl [H3]; · iexists _; iexact H3
  iintro HB
  dsimp only [dat3]
  iframe
  iexact Ho

end Cert.Kernel.Hand

end
-- ==== Proof.K.Reg4.lean ====
import proofs.«405441_j33243046871479_1_alg».proof.Proof.Gen.Kernel.Launch
import proofs.«405441_j33243046871479_1_alg».proof.Proof.Gen.Kernel.Skeleton
import proofs.«405441_j33243046871479_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 := by decide +kernel

abbrev cond4_1 (i : grid4.Coords) : Prop := k4_cond2 i = 1#1
theorem hcond4_1 : ∀ t : Fin cfg4.N, cond4_1 (grid4.coords t) ↔ t.val % 10 = 9 := by decide +kernel

theorem idle4_2 : ∀ t : Fin cfg4.N, ¬t.val % 10 = 9 → cfg4.idle 2 (grid4.coords t) = true ∧ (cfg4.win 2).flush t = false := by decide +kernel
theorem live4_2 : ∀ t : Fin cfg4.N, t.val % 10 = 9 → cfg4.idle 2 (grid4.coords t) = false := by decide +kernel

abbrev VO4_2 : View sig .tc .vmem S64x128 .f32 := (Memref.whole cc4_stg2_0 : Memref sig .tc .vmem S64x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x128 .f32 := win4_2.stage (cfg4.slots t 2)
abbrev hs4_2 (t : Fin cfg4.N) : (ms4_2 t).IsWhole := hstage4_2 ((cfg4.slots t 2).cast nbuf4_2)
abbrev scM4_0 : Memref sig .tc .vmem S64x128 .f32 := Memref.whole cc4_scratch0
abbrev scM4_1 : Memref sig .tc .vmem S64x1 .f32 := Memref.whole cc4_scratch1

def kept4 (P : sProp 𝕄) : sProp 𝕄 :=
  iprop(iprop(P ∗ Pipeline.scopedRestBut (Ix := Unit) (Name := ℕ) (U := UR sig nD τ) (Lvl := ℕ) (Val := Elt F) spec4 c [cc4_scratch0, cc4_scratch1]) ∗ (∃ r, prngReg c r))

theorem PhiA4_eq : (Pipeline.ΦA spec4 c : sProp 𝕄)
    = kept4 c iprop((∃ d, owns (c : Thread nD τ) scM4_0 fullShare d) ∗ (∃ d, owns (c : Thread nD τ) scM4_1 fullShare d)) := by
  unfold Pipeline.ΦA kept4; rw [scopedRest4_split]; simp only [scM4_0, scM4_1, owns_whole]; try rfl

-- Reading through a whole memref is a bijection on contents: owning it at `x` is holding the one contents that read `x`.
theorem owns_eq_unread {sp : Space} {sh : Shape} {e : EltTy} {m : Memref sig .tc sp sh e} (h : m.IsWhole) (x : sh.Idx → Elt F e) :
    (owns (c : Thread nD τ) m fullShare x : sProp 𝕄) = (m.view.loc (c : Thread nD τ) ↦[m.view.set]{fullShare} h.unread x) := by
  unfold owns
  refine BI.equiv_iff.mp ⟨?_, ?_⟩ <;> show (_ : sProp 𝕄) ⊢ _
  · iintro ⟨%f, %hf, H⟩; obtain rfl := h.eq_unread hf; iexact H
  · iintro H; iexists _; isplitr; · ipureintro; exact h.read_unread _
    iexact H

-- Writes whose pieces cover the shape fix every element read afterwards, whatever was there before.
theorem owns_cover {sh : Shape} {e : EltTy} {m : Memref sig .tc .vmem sh e} (v : View sig .tc .vmem sh e) {L : List (View.Piece (Elt F) sh e)}
    (hL : ∀ y, ∃ pc ∈ L, y ∈ pc.1.set) :
    iprop(∃ f, m.view.loc (c : Thread nD τ) ↦[m.view.set]{fullShare} m.view.writes (Elt F) f L)
      ⊢ (owns (c : Thread nD τ) m fullShare (v.read (Elt F) (v.writes (Elt F) v.junk L)) : sProp 𝕄) := by
  unfold owns; iintro ⟨%f, H⟩; iexists m.view.writes (Elt F) f L; isplitr; · ipureintro; exact View.read_writes_of_cover _ _ _ _ _ hL
  iexact H

section
variable (i : grid4.Coords) (arg1 : Memref sig .tc .vmem S5000x128 .f32) (harg1 : arg1.IsWhole) (arg2 : Memref sig .tc .vmem S5000x1 .i32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole)

section
variable (hc0 : cond4_0 i) (hc1 : ¬cond4_1 i) (x0 : Vec F S5000x128 .f32) (x1 : Vec F S5000x1 .i32)

set_option maxHeartbeats 1000000 in
def kernelRun4_A :
    Σ' (L2 : List (View.Piece (Elt F) S64x128 .f32)) (LS0 : List (View.Piece (Elt F) S64x128 .f32)), { LS1 : List (View.Piece (Elt F) S64x1 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨[], ?_, ?_, fun xi2 E K => ?run⟩
  case run =>
    simp only [cc4__pool_kernel_eq_skeleton, owns_eq_unread c harg1, owns_eq_unread c harg2, owns_eq_unread c harg3]; unfold cc4__pool_kernel_skel owns
    iintro ⟨H0, H1, H2, ⟨%ds0, %fs0, -, HS0⟩, ⟨%ds1, %fs1, -, HS1⟩, Hk⟩
    sl_exec (disch := first | exact hc0 | exact hc1)
    sl_step
    iapply Hk
    iframe H0 H1 H2
    isplitl [HS0]; · iexists _; iexact HS0
    iexists _; iexact HS1

def out4_A_2 : Vec F S64x128 .f32 :=
  VO4_2.read (Elt F) (VO4_2.writes (Elt F) VO4_2.junk (kernelRun4_A c i arg1 harg1 arg2 harg2 arg3 harg3 arg4 harg4 arg5 harg5 hc0 hc1 x0 x1).1)

theorem scover4_A_0 (y : S64x128.Idx) : ∃ pc ∈ (kernelRun4_A c i arg1 harg1 arg2 harg2 arg3 harg3 arg4 harg4 arg5 harg5 hc0 hc1 x0 x1).2.1, y ∈ pc.1.set :=
  View.cover_of_tiledL _ S64x128.size (by sl_kernel_rfl) y

def sout4_A_0 : Vec F S64x128 .f32 :=
  scM4_0.view.read (Elt F) (scM4_0.view.writes (Elt F) scM4_0.view.junk (kernelRun4_A c i arg1 harg1 arg2 harg2 arg3 harg3 arg4 harg4 arg5 harg5 hc0 hc1 x0 x1).2.1)

theorem scover4_A_1 (y : S64x1.Idx) : ∃ pc ∈ (kernelRun4_A c i arg1 harg1 arg2 harg2 arg3 harg3 arg4 harg4 arg5 harg5 hc0 hc1 x0 x1).2.2.1, y ∈ pc.1.set :=
  View.cover_of_tiledL _ S64x1.size (by sl_kernel_rfl) y

def sout4_A_1 : Vec F S64x1 .f32 :=
  scM4_1.view.read (Elt F) (scM4_1.view.writes (Elt F) scM4_1.view.junk (kernelRun4_A c i arg1 harg1 arg2 harg2 arg3 harg3 arg4 harg4 arg5 harg5 hc0 hc1 x0 x1).2.2.1)

def outs4_A : Vec F S64x128 .f32 × Vec F S64x128 .f32 × Vec F S64x1 .f32 :=
  (out4_A_2 c i arg1 harg1 arg2 harg2 arg3 harg3 arg4 harg4 arg5 harg5 hc0 hc1 x0 x1, sout4_A_0 c i arg1 harg1 arg2 harg2 arg3 harg3 arg4 harg4 arg5 harg5 hc0 hc1 x0 x1, sout4_A_1 c i arg1 harg1 arg2 harg2 arg3 harg3 arg4 harg4 arg5 harg5 hc0 hc1 x0 x1)

end

section
variable (hc0 : ¬cond4_0 i) (hc1 : ¬cond4_1 i) (x0 : Vec F S5000x128 .f32) (x1 : Vec F S5000x1 .i32) (xs0 : Vec F S64x128 .f32) (xs1 : Vec F S64x1 .f32)

set_option maxHeartbeats 1000000 in
def kernelRun4_B :
    Σ' (L2 : List (View.Piece (Elt F) S64x128 .f32)) (LS0 : List (View.Piece (Elt F) S64x128 .f32)), { LS1 : List (View.Piece (Elt F) S64x1 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨[], ?_, ?_, fun xi2 E K => ?run⟩
  case run =>
    simp only [cc4__pool_kernel_eq_skeleton, owns_eq_unread c harg1, owns_eq_unread c harg2, owns_eq_unread c harg3, owns_eq_unread c harg4, owns_eq_unread c harg5]; unfold cc4__pool_kernel_skel
    iintro ⟨H0, H1, H2, HS0, HS1, Hk⟩
    sl_exec (disch := first | exact hc0 | exact hc1)
    sl_step
    iapply Hk
    iframe H0 H1 H2
    isplitl [HS0]; · iexists _; iexact HS0
    iexists _; iexact HS1

def out4_B_2 : Vec F S64x128 .f32 :=
  VO4_2.read (Elt F) (VO4_2.writes (Elt F) VO4_2.junk (kernelRun4_B c i arg1 harg1 arg2 harg2 arg3 harg3 arg4 harg4 arg5 harg5 hc0 hc1 x0 x1 xs0 xs1).1)

theorem scover4_B_0 (y : S64x128.Idx) : ∃ pc ∈ (kernelRun4_B c i arg1 harg1 arg2 harg2 arg3 harg3 arg4 harg4 arg5 harg5 hc0 hc1 x0 x1 xs0 xs1).2.1, y ∈ pc.1.set :=
  View.cover_of_tiledL _ S64x128.size (by sl_kernel_rfl) y

def sout4_B_0 : Vec F S64x128 .f32 :=
  scM4_0.view.read (Elt F) (scM4_0.view.writes (Elt F) scM4_0.view.junk (kernelRun4_B c i arg1 harg1 arg2 harg2 arg3 harg3 arg4 harg4 arg5 harg5 hc0 hc1 x0 x1 xs0 xs1).2.1)

theorem scover4_B_1 (y : S64x1.Idx) : ∃ pc ∈ (kernelRun4_B c i arg1 harg1 arg2 harg2 arg3 harg3 arg4 harg4 arg5 harg5 hc0 hc1 x0 x1 xs0 xs1).2.2.1, y ∈ pc.1.set :=
  View.cover_of_tiledL _ S64x1.size (by sl_kernel_rfl) y

def sout4_B_1 : Vec F S64x1 .f32 :=
  scM4_1.view.read (Elt F) (scM4_1.view.writes (Elt F) scM4_1.view.junk (kernelRun4_B c i arg1 harg1 arg2 harg2 arg3 harg3 arg4 harg4 arg5 harg5 hc0 hc1 x0 x1 xs0 xs1).2.2.1)

def outs4_B : Vec F S64x128 .f32 × Vec F S64x128 .f32 × Vec F S64x1 .f32 :=
  (out4_B_2 c i arg1 harg1 arg2 harg2 arg3 harg3 arg4 harg4 arg5 harg5 hc0 hc1 x0 x1 xs0 xs1, sout4_B_0 c i arg1 harg1 arg2 harg2 arg3 harg3 arg4 harg4 arg5 harg5 hc0 hc1 x0 x1 xs0 xs1, sout4_B_1 c i arg1 harg1 arg2 harg2 arg3 harg3 arg4 harg4 arg5 harg5 hc0 hc1 x0 x1 xs0 xs1)

end

section
variable (hc0 : ¬cond4_0 i) (hc1 : cond4_1 i) (x0 : Vec F S5000x128 .f32) (x1 : Vec F S5000x1 .i32) (xs0 : Vec F S64x128 .f32) (xs1 : Vec F S64x1 .f32)

set_option maxHeartbeats 1000000 in
def kernelRun4_C :
    Σ' (L2 : List (View.Piece (Elt F) S64x128 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨?_, ?_, ?_, fun E K => ?run⟩
  case run =>
    simp only [cc4__pool_kernel_eq_skeleton, owns_eq_unread c harg1, owns_eq_unread c harg2, owns_eq_unread c harg4, owns_eq_unread c harg5]; unfold cc4__pool_kernel_skel owns
    iintro ⟨H0, H1, ⟨%d2, %f2, -, H2⟩, HS0, HS1, Hk⟩
    sl_exec (disch := first | exact hc0 | exact hc1)
    sl_step
    iapply Hk
    iframe H0 H1
    isplitl [H2]; · iexists _; iexact H2
    isplitl [HS0]; · iexists _; iexact HS0
    iexists _; iexact HS1

theorem cover4_C_2 (y : S64x128.Idx) : ∃ pc ∈ (kernelRun4_C c i arg1 harg1 arg2 harg2 arg3 harg3 arg4 harg4 arg5 harg5 hc0 hc1 x0 x1 xs0 xs1).1, y ∈ pc.1.set :=
  View.cover_of_tiledL _ S64x128.size (by sl_kernel_rfl) y

def out4_C_2 : Vec F S64x128 .f32 :=
  VO4_2.read (Elt F) (VO4_2.writes (Elt F) VO4_2.junk (kernelRun4_C c i arg1 harg1 arg2 harg2 arg3 harg3 arg4 harg4 arg5 harg5 hc0 hc1 x0 x1 xs0 xs1).1)

theorem scover4_C_0 (y : S64x128.Idx) : ∃ pc ∈ (kernelRun4_C c i arg1 harg1 arg2 harg2 arg3 harg3 arg4 harg4 arg5 harg5 hc0 hc1 x0 x1 xs0 xs1).2.1, y ∈ pc.1.set :=
  View.cover_of_tiledL _ S64x128.size (by sl_kernel_rfl) y

def sout4_C_0 : Vec F S64x128 .f32 :=
  scM4_0.view.read (Elt F) (scM4_0.view.writes (Elt F) scM4_0.view.junk (kernelRun4_C c i arg1 harg1 arg2 harg2 arg3 harg3 arg4 harg4 arg5 harg5 hc0 hc1 x0 x1 xs0 xs1).2.1)

theorem scover4_C_1 (y : S64x1.Idx) : ∃ pc ∈ (kernelRun4_C c i arg1 harg1 arg2 harg2 arg3 harg3 arg4 harg4 arg5 harg5 hc0 hc1 x0 x1 xs0 xs1).2.2.1, y ∈ pc.1.set :=
  View.cover_of_tiledL _ S64x1.size (by sl_kernel_rfl) y

def sout4_C_1 : Vec F S64x1 .f32 :=
  scM4_1.view.read (Elt F) (scM4_1.view.writes (Elt F) scM4_1.view.junk (kernelRun4_C c i arg1 harg1 arg2 harg2 arg3 harg3 arg4 harg4 arg5 harg5 hc0 hc1 x0 x1 xs0 xs1).2.2.1)

def outs4_C : Vec F S64x128 .f32 × Vec F S64x128 .f32 × Vec F S64x1 .f32 :=
  (out4_C_2 c i arg1 harg1 arg2 harg2 arg3 harg3 arg4 harg4 arg5 harg5 hc0 hc1 x0 x1 xs0 xs1, sout4_C_0 c i arg1 harg1 arg2 harg2 arg3 harg3 arg4 harg4 arg5 harg5 hc0 hc1 x0 x1 xs0 xs1, sout4_C_1 c i arg1 harg1 arg2 harg2 arg3 harg3 arg4 harg4 arg5 harg5 hc0 hc1 x0 x1 xs0 xs1)

end

end

theorem nz4 {n : ℕ} (hn : n + 1 < cfg4.N) : ¬(n + 1) % 10 = 0 := by have : cfg4.N = 10 := N_4; omega

-- The three contents after point `n`: the first point starts afresh, each later one continues from the point before.
def outsAt4 : (n : ℕ) → n < cfg4.N → Vec F S64x128 .f32 × Vec F S64x128 .f32 × Vec F S64x1 .f32
  | 0, hn => outs4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 _).mpr rfl) (mt (hcond4_1 _).mp nofun) (iblk4 V c 0 ⟨0, hn⟩) (iblk4 V c 1 ⟨0, hn⟩)
  | n + 1, hn =>
    if h1 : (n + 1) % 10 = 9 then
      outs4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (mt (hcond4_0 ⟨n + 1, hn⟩).mp (nz4 hn)) ((hcond4_1 ⟨n + 1, hn⟩).mpr h1) (iblk4 V c 0 ⟨n + 1, hn⟩) (iblk4 V c 1 ⟨n + 1, hn⟩) (outsAt4 n (Nat.lt_of_succ_lt hn)).2.1 (outsAt4 n (Nat.lt_of_succ_lt hn)).2.2
    else
      outs4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (mt (hcond4_0 ⟨n + 1, hn⟩).mp (nz4 hn)) (mt (hcond4_1 ⟨n + 1, hn⟩).mp h1) (iblk4 V c 0 ⟨n + 1, hn⟩) (iblk4 V c 1 ⟨n + 1, hn⟩) (outsAt4 n (Nat.lt_of_succ_lt hn)).2.1 (outsAt4 n (Nat.lt_of_succ_lt hn)).2.2

theorem outsAt4_A (t : Fin cfg4.N) (h0 : t.val % 10 = 0) (h1 : ¬t.val % 10 = 9) :
    outsAt4 V c t.val t.isLt = (out4_A_2 c (grid4.coords t) (ms4_0 t) (hs4_0 t) (ms4_1 t) (hs4_1 t) (ms4_2 t) (hs4_2 t) scM4_0 (Memref.isWhole_whole _) scM4_1 (Memref.isWhole_whole _) ((hcond4_0 t).mpr h0) (mt (hcond4_1 t).mp h1) (iblk4 V c 0 t) (iblk4 V c 1 t), sout4_A_0 c (grid4.coords t) (ms4_0 t) (hs4_0 t) (ms4_1 t) (hs4_1 t) (ms4_2 t) (hs4_2 t) scM4_0 (Memref.isWhole_whole _) scM4_1 (Memref.isWhole_whole _) ((hcond4_0 t).mpr h0) (mt (hcond4_1 t).mp h1) (iblk4 V c 0 t) (iblk4 V c 1 t), sout4_A_1 c (grid4.coords t) (ms4_0 t) (hs4_0 t) (ms4_1 t) (hs4_1 t) (ms4_2 t) (hs4_2 t) scM4_0 (Memref.isWhole_whole _) scM4_1 (Memref.isWhole_whole _) ((hcond4_0 t).mpr h0) (mt (hcond4_1 t).mp h1) (iblk4 V c 0 t) (iblk4 V c 1 t)) := by
  obtain ⟨n, hn⟩ := t
  cases n with
  | zero => rfl
  | succ n => exact absurd h0 (nz4 hn)

theorem outsAt4_B (t : Fin cfg4.N) (h0 : ¬t.val % 10 = 0) (h1 : ¬t.val % 10 = 9) :
    outsAt4 V c t.val t.isLt = (out4_B_2 c (grid4.coords t) (ms4_0 t) (hs4_0 t) (ms4_1 t) (hs4_1 t) (ms4_2 t) (hs4_2 t) scM4_0 (Memref.isWhole_whole _) scM4_1 (Memref.isWhole_whole _) (mt (hcond4_0 t).mp h0) (mt (hcond4_1 t).mp h1) (iblk4 V c 0 t) (iblk4 V c 1 t) (outsAt4 V c (t.val - 1) (Nat.sub_lt_of_lt t.isLt)).2.1 (outsAt4 V c (t.val - 1) (Nat.sub_lt_of_lt t.isLt)).2.2, sout4_B_0 c (grid4.coords t) (ms4_0 t) (hs4_0 t) (ms4_1 t) (hs4_1 t) (ms4_2 t) (hs4_2 t) scM4_0 (Memref.isWhole_whole _) scM4_1 (Memref.isWhole_whole _) (mt (hcond4_0 t).mp h0) (mt (hcond4_1 t).mp h1) (iblk4 V c 0 t) (iblk4 V c 1 t) (outsAt4 V c (t.val - 1) (Nat.sub_lt_of_lt t.isLt)).2.1 (outsAt4 V c (t.val - 1) (Nat.sub_lt_of_lt t.isLt)).2.2, sout4_B_1 c (grid4.coords t) (ms4_0 t) (hs4_0 t) (ms4_1 t) (hs4_1 t) (ms4_2 t) (hs4_2 t) scM4_0 (Memref.isWhole_whole _) scM4_1 (Memref.isWhole_whole _) (mt (hcond4_0 t).mp h0) (mt (hcond4_1 t).mp h1) (iblk4 V c 0 t) (iblk4 V c 1 t) (outsAt4 V c (t.val - 1) (Nat.sub_lt_of_lt t.isLt)).2.1 (outsAt4 V c (t.val - 1) (Nat.sub_lt_of_lt t.isLt)).2.2) := by
  obtain ⟨n, hn⟩ := t
  cases n with
  | zero => exact absurd rfl h0
  | succ n => exact (dif_neg h1).trans rfl

theorem outsAt4_C (t : Fin cfg4.N) (h0 : ¬t.val % 10 = 0) (h1 : t.val % 10 = 9) :
    outsAt4 V c t.val t.isLt = (out4_C_2 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (iblk4 V c 1 t) (outsAt4 V c (t.val - 1) (Nat.sub_lt_of_lt t.isLt)).2.1 (outsAt4 V c (t.val - 1) (Nat.sub_lt_of_lt t.isLt)).2.2, sout4_C_0 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (iblk4 V c 1 t) (outsAt4 V c (t.val - 1) (Nat.sub_lt_of_lt t.isLt)).2.1 (outsAt4 V c (t.val - 1) (Nat.sub_lt_of_lt t.isLt)).2.2, sout4_C_1 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (iblk4 V c 1 t) (outsAt4 V c (t.val - 1) (Nat.sub_lt_of_lt t.isLt)).2.1 (outsAt4 V c (t.val - 1) (Nat.sub_lt_of_lt t.isLt)).2.2) := by
  obtain ⟨n, hn⟩ := t
  cases n with
  | zero => exact absurd rfl h0
  | succ n => exact (dif_pos h1).trans rfl

def held4 (p : Vec F S64x128 .f32 × Vec F S64x128 .f32 × Vec F S64x1 .f32) : sProp 𝕄 :=
  kept4 c iprop(owns (c : Thread nD τ) scM4_0 fullShare p.2.1 ∗ owns (c : Thread nD τ) scM4_1 fullShare p.2.2)

def PhiS4 : (n : ℕ) → n ≤ cfg4.N → sProp 𝕄
  | 0, _ => Pipeline.ΦA spec4 c
  | n + 1, hn => held4 c (outsAt4 V c n hn)

theorem PhiS4_pos (n : ℕ) (h : n ≤ cfg4.N) (hz : n ≠ 0) :
    PhiS4 V c n h = held4 c (outsAt4 V c (n - 1) (by omega)) := by
  cases n with
  | zero => exact absurd rfl hz
  | succ n => rfl

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (w : Fin cfg4.W) : (dat4 V c).A w = V c (Pipeline.arrRef spec4 w) := rfl

theorem after4_2 (t : Fin cfg4.N) : (dat4 V c).after 2 t = (outsAt4 V c t.val t.isLt).1 := rfl

theorem before4_0 (t : Fin cfg4.N) (d) : (dat4 V c).before 0 t d = iblk4 V c 0 t :=
  ((dat4 V c).before_in_eq_fetched 0 rfl (fun _ => rfl) (fun _ _ _ => rfl) (fun _ => rfl) t d).trans rfl

theorem before4_1 (t : Fin cfg4.N) (d) : (dat4 V c).before 1 t d = iblk4 V c 1 t :=
  ((dat4 V c).before_in_eq_fetched 1 rfl (fun _ => rfl) (fun _ _ _ => rfl) (fun _ => rfl) t d).trans rfl

theorem PhiS4_zero (n : ℕ) (h : n ≤ cfg4.N) (hz : n = 0) : PhiS4 V c n h = Pipeline.ΦA spec4 c := by subst hz; rfl

-- By cases on the point: the last (`n % 10 = 9`), the first (`n % 10 = 0`), or one between.
set_option maxHeartbeats 4800000 in
theorem sound_body4 (t : Fin cfg4.N) :
    iprop((dat4 V c).Φ t.castSucc ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ ∗ (dat4 V c).leavesExact 0 t ∗ (dat4 V c).leavesExact 1 t ∗ (dat4 V c).leavesExact 2 t)) := by
  unfold bodyAt4
  simp only [before4_0, before4_1]
  rw [show (dat4 V c).owesAt () t.succ = (dat4 V c).owesAt () t.castSucc from rfl,
    show (dat4 V c).Φ t.succ = held4 c (outsAt4 V c t.val t.isLt) from rfl,
    show (dat4 V c).Φ t.castSucc = PhiS4 V c t.val (Nat.le_of_lt t.isLt) from rfl,
    show (dat4 V c).leavesExact 0 t = owns (c : Thread nD τ) (ms4_0 t) fullShare (iblk4 V c 0 t) from rfl,
    show (dat4 V c).leavesExact 1 t = owns (c : Thread nD τ) (ms4_1 t) fullShare (iblk4 V c 1 t) from rfl]
  have hN : t.val < 10 := lt_of_lt_of_eq t.isLt (show cfg4.N = 10 from N_4)
  by_cases h1 : t.val % 10 = 9
  · have h0 : ¬t.val % 10 = 0 := by omega
    rw [show (dat4 V c).leavesExact 2 t = owns (c : Thread nD τ) (ms4_2 t) fullShare (outsAt4 V c t.val t.isLt).1 from by
      unfold Dat.leavesExact; rw [live4_2 t h1]; rfl, outsAt4_C V c t h0 h1, PhiS4_pos V c t.val _ (by omega)]
    unfold out4_C_2 sout4_C_0 sout4_C_1 held4 kept4; dsimp only
    iintro ⟨⟨⟨⟨HS0, HS1⟩, Hr⟩, Hg⟩, Ho, ⟨%d0, H0⟩, ⟨%d1, H1⟩, ⟨%d2, H2⟩⟩
    iapply (kernelRun4_C c (grid4.coords t) _ _ _ _ _ _ _ _ _ _ (mt (hcond4_0 t).mp h0) ((hcond4_1 t).mpr h1) (iblk4 V c 0 t) (iblk4 V c 1 t) _ _).2.2.2 Set.univ _
    iframe H0 H1
    isplitl [H2]; · iexists _; iexact H2
    isplitl [HS0]; · iexact HS0
    isplitl [HS1]; · iexact HS1
    iintro ⟨H0, H1, H2, HS0, HS1⟩
    ihave H2 := owns_cover c VO4_2 (cover4_C_2 c _ _ _ _ _ _ _ _ _ _ _ _ _ _ _ _ _) $$ H2
    ihave HS0 := owns_cover c scM4_0.view (scover4_C_0 c _ _ _ _ _ _ _ _ _ _ _ _ _ _ _ _ _) $$ HS0
    ihave HS1 := owns_cover c scM4_1.view (scover4_C_1 c _ _ _ _ _ _ _ _ _ _ _ _ _ _ _ _ _) $$ HS1
    iframe
  · rw [Dat.leavesExact_idle (dat4 V c) 2 t (idle4_2 t h1).1 (idle4_2 t h1).2]
    by_cases h0 : t.val % 10 = 0
    · rw [outsAt4_A V c t h0 h1, PhiS4_zero V c t.val _ (by omega), PhiA4_eq]
      unfold sout4_A_0 sout4_A_1 held4 kept4; dsimp only
      iintro ⟨⟨⟨⟨HS0, HS1⟩, Hr⟩, Hg⟩, Ho, ⟨%d0, H0⟩, ⟨%d1, H1⟩, ⟨%d2, H2⟩⟩
      iapply (kernelRun4_A c (grid4.coords t) _ _ _ _ _ _ _ _ _ _ ((hcond4_0 t).mpr h0) (mt (hcond4_1 t).mp h1) (iblk4 V c 0 t) (iblk4 V c 1 t)).2.2.2 ((dat4 V c).before 2 t d2) Set.univ _
      iframe H0 H1 H2 HS0 HS1
      iintro ⟨H0, H1, H2, HS0, HS1⟩
      ihave HS0 := owns_cover c scM4_0.view (scover4_A_0 c _ _ _ _ _ _ _ _ _ _ _ _ _ _ _) $$ HS0
      ihave HS1 := owns_cover c scM4_1.view (scover4_A_1 c _ _ _ _ _ _ _ _ _ _ _ _ _ _ _) $$ HS1
      iframe HS0 HS1 Hr Hg Ho H0 H1
      iexists _; iexact H2
    · rw [outsAt4_B V c t h0 h1, PhiS4_pos V c t.val _ (by omega)]
      unfold sout4_B_0 sout4_B_1 held4 kept4; dsimp only
      iintro ⟨⟨⟨⟨HS0, HS1⟩, Hr⟩, Hg⟩, Ho, ⟨%d0, H0⟩, ⟨%d1, H1⟩, ⟨%d2, H2⟩⟩
      iapply (kernelRun4_B c (grid4.coords t) _ _ _ _ _ _ _ _ _ _ (mt (hcond4_0 t).mp h0) (mt (hcond4_1 t).mp h1) (iblk4 V c 0 t) (iblk4 V c 1 t) _ _).2.2.2 ((dat4 V c).before 2 t d2) Set.univ _
      iframe H0 H1 H2
      isplitl [HS0]; · iexact HS0
      isplitl [HS1]; · iexact HS1
      iintro ⟨H0, H1, H2, HS0, HS1⟩
      ihave HS0 := owns_cover c scM4_0.view (scover4_B_0 c _ _ _ _ _ _ _ _ _ _ _ _ _ _ _ _ _) $$ HS0
      ihave HS1 := owns_cover c scM4_1.view (scover4_B_1 c _ _ _ _ _ _ _ _ _ _ _ _ _ _ _ _ _) $$ HS1
      iframe HS0 HS1 Hr Hg Ho H0 H1
      iexists _; iexact H2

theorem body_obligation4 : BodyObligation (dat4 (F := F) V c) (defs₀ (F := F)) Variants.none () Set.univ := fun t => by
  rw [bigSep_W4, bigSep_W4]
  exact sound_body4 V c t

theorem hin4 : Pipeline.ΦA spec4 c ⊢ (dat4 V c).Φ 0 := Idealize.SL.BI.Entails.refl _

theorem hout4 : (dat4 V c).Φ (Fin.last cfg4.N) ⊢ Pipeline.ΦA spec4 c := by
  rw [show (dat4 V c).Φ (Fin.last cfg4.N) = PhiS4 V c cfg4.N (Nat.le_refl _) from rfl, PhiS4_pos V c cfg4.N _ (by have : cfg4.N = 10 := N_4; omega), PhiA4_eq]
  unfold held4 kept4
  iintro ⟨⟨⟨HS0, HS1⟩, Hr⟩, Hg⟩
  iframe Hr Hg
  isplitl [HS0]; · iexists _; iexact HS0
  iexists _; iexact HS1

end Cert.Kernel.Hand

end
-- ==== Proof.K.Chain.lean ====
import proofs.«405441_j33243046871479_1_alg».proof.Proof.K.Reg0
import proofs.«405441_j33243046871479_1_alg».proof.Proof.K.Reg1
import proofs.«405441_j33243046871479_1_alg».proof.Proof.K.Reg2
import proofs.«405441_j33243046871479_1_alg».proof.Proof.K.Reg3
import proofs.«405441_j33243046871479_1_alg».proof.Proof.K.Reg4
import proofs.«405441_j33243046871479_1_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- A region changes no buffer but the array of its one output window `o`. -/
theorem withArrays_keep {cfg : Pipeline.Cfg sig Λ₀} {c : Dev nD} (dat : Dat τ (Elt F) Unit ℕ (UR sig nD τ) ℕ cfg c)
    (W : Valuation τ sig (Elt F)) (hA : ∀ w, dat.A w = W (Pipeline.arrRef cfg.spec w)) (hinj : Function.Injective (Pipeline.arrRef cfg.spec))
    (o : Fin cfg.W) (ho : ∀ w, w ≠ o → (cfg.win w).isOut = false) (b : Ref sig .tc) (hb : b ≠ Pipeline.arrRef cfg.spec o) :
    Pipeline.withArrays cfg.spec c W (dat.arrAt · cfg.N) b = W b := by
  by_cases h : ∃ w, Pipeline.arrRef cfg.spec w = b
  · obtain ⟨w, rfl⟩ := h
    rw [Pipeline.withArrays_arr cfg.spec hinj]
    exact (dat.arrAt_in w (ho w fun e => hb (e ▸ rfl)) _).trans (hA w)
  · exact Pipeline.withArrays_of_ne cfg.spec c _ _ b fun w e => h ⟨w, e⟩

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_keep (c : Dev nD) (b : Ref sig .tc) (hb : b ≠ main_v14) :
    W2 m c (Proc.devRef .tc b) = W1 m c (Proc.devRef .tc b) :=
  withArrays_keep (dat0 (V1 m) c) (W1 m c) (A_eq0 (V1 m) c) launch0.win.arr_inj 3 (by decide) b hb

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem W4_keep (c : Dev nD) (b : Ref sig .tc) (hb : b ≠ main_v27) :
    W4 m c (Proc.devRef .tc b) = W3 m c (Proc.devRef .tc b) :=
  withArrays_keep (dat1 (V3 m) c) (W3 m c) (A_eq1 (V3 m) c) launch1.win.arr_inj 3 (by decide) b hb

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
theorem W6_keep (c : Dev nD) (b : Ref sig .tc) (hb : b ≠ main_v29) :
    W6 m c (Proc.devRef .tc b) = W5 m c (Proc.devRef .tc b) :=
  withArrays_keep (dat2 (V5 m) c) (W5 m c) (A_eq2 (V5 m) c) launch2.win.arr_inj 3 (by decide) b hb

abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w
theorem W8_keep (c : Dev nD) (b : Ref sig .tc) (hb : b ≠ main_v42) :
    W8 m c (Proc.devRef .tc b) = W7 m c (Proc.devRef .tc b) :=
  withArrays_keep (dat3 (V7 m) c) (W7 m c) (A_eq3 (V7 m) c) launch3.win.arr_inj 3 (by decide) b hb

abbrev W9 : Dev nD → Valuation τ sig (Elt F) := fun c => StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N :=
  Pipeline.withArrays_arr spec4 launch4.win.arr_inj c _ _ w
theorem W10_keep (c : Dev nD) (b : Ref sig .tc) (hb : b ≠ main_v44) :
    W10 m c (Proc.devRef .tc b) = W9 m c (Proc.devRef .tc b) :=
  withArrays_keep (dat4 (V9 m) c) (W9 m c) (A_eq4 (V9 m) c) launch4.win.arr_inj 2 (by decide) b hb

abbrev W11 : Dev nD → Valuation τ sig (Elt F) := fun c => StableHlo.after hostOps5 (W10 m c)
abbrev W12 : Dev nD → Valuation τ sig (Elt F) := fun c => StableHlo.after hostOps5_1 (W11 m c)
abbrev W13 : Dev nD → Valuation τ sig (Elt F) := fun c => StableHlo.after hostOps5_2 (W12 m c)
abbrev W14 : Dev nD → Valuation τ sig (Elt F) := fun c => StableHlo.after hostOps5_3 (W13 m c)
abbrev W15 : Dev nD → Valuation τ sig (Elt F) := fun c => StableHlo.after hostOps5_4 (W14 m c)

/-- A buffer that no host operation and no region writes holds at the end what it held at the launch. -/
theorem W15_kept (c : Dev nD) (r : Ref sig .tc)
    (h : r ∉ hostOps0_W ++ hostOps1_W ++ hostOps2_W ++ hostOps3_W ++ hostOps4_W ++ hostOps5_W ++ hostOps5_1_W ++ hostOps5_2_W
      ++ hostOps5_3_W ++ hostOps5_4_W ++ [main_v14, main_v27, main_v29, main_v42, main_v44]) :
    W15 m c (Proc.devRef .tc r) = m ((c : Thread nD τ).loc r) := by
  simp only [List.mem_append, not_or] at h
  obtain ⟨⟨⟨⟨⟨⟨⟨⟨⟨⟨h0, h1⟩, h2⟩, h3⟩, h4⟩, h5⟩, h51⟩, h52⟩, h53⟩, h54⟩, ho⟩ := h
  have e (x) (hx : x ∈ [main_v14, main_v27, main_v29, main_v42, main_v44]) : r ≠ x := fun e => ho (e ▸ hx)
  calc W15 m c (Proc.devRef .tc r)
    _ = W14 m c (Proc.devRef .tc r) := StableHlo.after_of_writes_sub hostOps5_4 _ hostOps5_4_writes h54
    _ = W13 m c (Proc.devRef .tc r) := StableHlo.after_of_writes_sub hostOps5_3 _ hostOps5_3_writes h53
    _ = W12 m c (Proc.devRef .tc r) := StableHlo.after_of_writes_sub hostOps5_2 _ hostOps5_2_writes h52
    _ = W11 m c (Proc.devRef .tc r) := StableHlo.after_of_writes_sub hostOps5_1 _ hostOps5_1_writes h51
    _ = W10 m c (Proc.devRef .tc r) := StableHlo.after_of_writes_sub hostOps5 _ hostOps5_writes h5
    _ = W9 m c (Proc.devRef .tc r) := W10_keep m c r (e _ (by simp))
    _ = W8 m c (Proc.devRef .tc r) := StableHlo.after_of_writes_sub hostOps4 _ hostOps4_writes h4
    _ = W7 m c (Proc.devRef .tc r) := W8_keep m c r (e _ (by simp))
    _ = W6 m c (Proc.devRef .tc r) := StableHlo.after_of_writes_sub hostOps3 _ hostOps3_writes h3
    _ = W5 m c (Proc.devRef .tc r) := W6_keep m c r (e _ (by simp))
    _ = W4 m c (Proc.devRef .tc r) := StableHlo.after_of_writes_sub hostOps2 _ hostOps2_writes h2
    _ = W3 m c (Proc.devRef .tc r) := W4_keep m c r (e _ (by simp))
    _ = W2 m c (Proc.devRef .tc r) := StableHlo.after_of_writes_sub hostOps1 _ hostOps1_writes h1
    _ = W1 m c (Proc.devRef .tc r) := W2_keep m c r (e _ (by simp))
    _ = W0 m c (Proc.devRef .tc r) := StableHlo.after_of_writes_sub hostOps0 _ hostOps0_writes h0
    _ = m ((c : Thread nD τ).loc r) := rfl

end Cert.Kernel.Hand

end
-- ==== Proof.K.Family.lean ====
import proofs.«405441_j33243046871479_1_alg».proof.Proof.K.Chain

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Run.lean ====
import proofs.«405441_j33243046871479_1_alg».proof.Proof.K.Family

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- One region as an item of @main, from the contents `Wi` to `Wo`, which differ in the region's arrays only. -/
def regSeg (p : Fin 5) (lf : Pipeline.LaunchFacts (nD := nD) (τ := τ) cfgs p) (Wi Wo : Dev nD → Valuation τ sig (Elt F))
    (hb : ∀ c, BodyObligation (pdats m p c) (defs₀ (F := F)) Variants.none () Set.univ)
    (hq : ∀ c w, (pdats m p c).q w = fullShare) (hA : ∀ c w, (pdats m p c).A w = Wi c (Pipeline.arrRef (cfgs p).spec w))
    (howed : ∀ c t, (pdats m p c).owed t = 0) (hrec : ∀ c, (pdats m p c).recorded 0 = Set.univ)
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄))
    (hWo : ∀ c, Wo c = Pipeline.withArrays (cfgs p).spec c (Wi c) ((pdats m p c).arrAt · (cfgs p).N)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    iintro ⟨Hp, -, Hr⟩
    iapply hin c
    unfold Pipeline.ΦA
    isplitl [Hr]; · iexact Hr
    iexact Hp
  hout c := by
    rw [Pipeline.ownSems0_none]
    iintro H
    ihave H' := hout c $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c b) (fun b => Wo c b) ((pdats m p c).arrAt · (cfgs p).N)
      (fun w => by rw [hWo]; exact (Pipeline.withArrays_arr (cfgs p).spec lf.win.arr_inj c (Wi c) ((pdats m p c).arrAt · (cfgs p).N) w).symm)
      (fun b hb => by rw [hWo]; exact Pipeline.withArrays_of_ne (cfgs p).spec c (Wi c) ((pdats m p c).arrAt · (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regSeg m 0 launch0 (W1 m) (W2 m) (body_obligation0 (V1 m)) (fun _ _ => rfl) (fun _ _ => rfl) (fun _ _ => rfl) (fun _ => rfl)
  (fun _ => .rfl) (fun _ => .rfl) fun _ => rfl
def reg1 := regSeg m 1 launch1 (W3 m) (W4 m) (body_obligation1 (V3 m)) (fun _ _ => rfl) (fun _ _ => rfl) (fun _ _ => rfl) (fun _ => rfl)
  (fun _ => .rfl) (fun _ => .rfl) fun _ => rfl
def reg2 := regSeg m 2 launch2 (W5 m) (W6 m) (body_obligation2 (V5 m)) (fun _ _ => rfl) (fun _ _ => rfl) (fun _ _ => rfl) (fun _ => rfl)
  (fun _ => .rfl) (fun _ => .rfl) fun _ => rfl
def reg3 := regSeg m 3 launch3 (W7 m) (W8 m) (body_obligation3 (V7 m)) (fun _ _ => rfl) (fun _ _ => rfl) (fun _ _ => rfl) (fun _ => rfl)
  (fun _ => .rfl) (fun _ => .rfl) fun _ => rfl
def reg4 := regSeg m 4 launch4 (W9 m) (W10 m) (body_obligation4 (V9 m)) (fun _ _ => rfl) (fun _ _ => rfl) (fun _ _ => rfl) (fun _ => rfl)
  (hin4 (V9 m)) (hout4 (V9 m)) fun _ => rfl

abbrev Tₙ (c : Dev nD) : sProp 𝕄 := iprop(StableHlo.held (c : Thread nD τ) (Pipeline.ucRefs τ sig) (W15 m c) ∗ ∃ r, prngReg c r)
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .host (hseg hostOps5_1 hostOps5_1_sub hostOps5_1_fresh (W11 m)),
    .host (hseg hostOps5_2 hostOps5_2_sub hostOps5_2_fresh (W12 m)),
    .host (hseg hostOps5_3 hostOps5_3_sub hostOps5_3_fresh (W13 m)),
    .host (hseg hostOps5_4 hostOps5_4_sub hostOps5_4_fresh (W14 m)) ]
theorem last_assoc (c : Dev nD) :
    (iprop(StableHlo.held (c : Thread nD τ) (Pipeline.ucRefs τ sig) (W15 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO
theorem main_run (c : Dev nD) : main (F := F) c = Pipeline.Seg.run (segs m) := (main_chain c).trans (by chain_rfl)
set_option backward.isDefEq.respectTransparency.types false in
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W15 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => last_assoc m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

/-- Every run ends with the result at the last contents' value and every argument as it was launched. -/
theorem run_result (ρ : Dev nD → PrngReg) : θ_run defs (onTc (τ := τ) (main (F := F))) ⟨m, fun _ => 0, ρ⟩ (fun r => ∀ c : Dev nD,
      r.2.mem ((c.tc : Thread nD τ).loc main_v59) = W15 m c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have k (b : Ref sig .tc) (hs : ¬ (Proc.devRef .tc b : DevRef τ sig).isScoped) (hk) :
        r.2.mem ((c.tc : Thread nD τ).loc b) = m ((c.tc : Thread nD τ).loc b) := (h c _ (mem_uc b hs)).trans (W15_kept m c b hk)
    ⟨h c _ (mem_uc main_v59 (by decide)), k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide), k main_arg13 (by decide) (by decide), k main_arg14 (by decide) (by decide)⟩) (run_all m ρ)

theorem frame (ρ : Dev nD → PrngReg) : θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_result m ρ)

end Cert.Kernel.Hand

end
-- ==== Proof.KI.RegLib.lean ====
import proofs.«405441_j33243046871479_1_alg».proof.Proof.Gen.KernelIdeal.Launch
import proofs.«405441_j33243046871479_1_alg».proof.Proof.Gen.KernelIdeal.Skeleton
import proofs.«405441_j33243046871479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen Idealize.ShloMosaic

variable {F : FTy → Type} [FloatOps F]

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rN : Rect S5000x1 := Rect.unit (s := S5000x1) ![0, 0] S5000x1.size inb_S5000x1_S5000x1_0_0
abbrev rB : Rect S1x128 := Rect.unit (s := S1x128) ![0, 0] S1x128.size inb_S1x128_S1x128_0_0

-- The rectangle of the whole shape contains every index.
theorem coverX (p : Vec F S5000x128 .f32) (y : S5000x128.Idx) :
    ∃ pc ∈ ([⟨rX, p⟩] : List (View.Piece (Elt F) S5000x128 .f32)), y ∈ pc.1.set :=
  View.cover_of_tiled [⟨rX, p⟩] S5000x128.size (by rfl) y

end Cert.KernelIdeal.Hand

end
-- ==== Proof.KI.Reg0.lean ====
import proofs.«405441_j33243046871479_1_alg».proof.Proof.KI.RegLib

noncomputable section

namespace Cert.KernelIdeal.Hand

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S5000x128 .f32) (x1 : Vec F S128x128 .f32) (x2 : Vec F S5000x1 .f32) : Vec F S5000x128 .f32 :=
  View.canon [⟨rX, k0_pay1 (View.ld x0 rX) (View.ld x1 rW) (View.ld x2 rN)⟩]

theorem sound_kernel0 (c : Dev nD) {E i arg1 harg1 arg2 harg2 arg3 harg3 arg4 harg4 x0 x1 x2} (K : PUnit → sProp (MT nD τ sig Unit (Elt F) ℕ (UR sig nD τ) ℕ)) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out0_3 x0 x1 x2)) -∗ K ⟨⟩))
      ⊢ wp frame (wpE (defs₀ (F := F)) Variants.none c none) E (cc0__pre_kernel i arg1 harg1 arg2 harg2 arg3 harg3 arg4 harg4) K := by
  simp only [cc0__pre_kernel_eq_skeleton]; unfold cc0__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (coverX _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by dsimp only [dat0]

theorem before0 (c : Dev nD) (t : Fin cfg0.N) : (∀ d, (dat0 V c).before 0 t d = iblk0 V c 0 t) ∧ (∀ d, (dat0 V c).before 1 t d = iblk0 V c 1 t)
    ∧ ∀ d, (dat0 V c).before 2 t d = iblk0 V c 2 t := by
  refine ⟨?_, ?_, ?_⟩ <;> exact fun d => ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  sl_whnfR [defs₀, Defs.onTc]
  simp only [(before0 V c t).1, (before0 V c t).2.1, (before0 V c t).2.2]
  iintro ⟨HΦ, Ho, ⟨%d0, H0⟩, ⟨%d1, H1⟩, ⟨%d2, H2⟩, ⟨%d3, H3⟩⟩
  iapply (sound_kernel0 c _)
  iframe H0 H1 H2
  isplitl [H3]; · iexists _; iexact H3
  iintro HB
  dsimp only [dat0]
  iframe
  iexact Ho

end Cert.KernelIdeal.Hand

end
-- ==== Proof.KI.Reg1.lean ====
import proofs.«405441_j33243046871479_1_alg».proof.Proof.KI.RegLib

noncomputable section

namespace Cert.KernelIdeal.Hand

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S5000x128 .f32) (x1 : Vec F S5000x1 .f32) (x2 : Vec F S1x128 .f32) : Vec F S5000x128 .f32 :=
  View.canon [⟨rX, k1_pay1 (View.ld x0 rX) (View.ld x1 rN) (View.ld x2 rB)⟩]

theorem sound_kernel1 (c : Dev nD) {E i arg1 harg1 arg2 harg2 arg3 harg3 arg4 harg4 x0 x1 x2} (K : PUnit → sProp (MT nD τ sig Unit (Elt F) ℕ (UR sig nD τ) ℕ)) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out1_3 x0 x1 x2)) -∗ K ⟨⟩))
      ⊢ wp frame (wpE (defs₀ (F := F)) Variants.none c none) E (cc1__post_kernel i arg1 harg1 arg2 harg2 arg3 harg3 arg4 harg4) K := by
  simp only [cc1__post_kernel_eq_skeleton]; unfold cc1__post_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (coverX _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = out1_3 (iblk1 V c 0 t) (iblk1 V c 1 t) (iblk1 V c 2 t) := by dsimp only [dat1]

theorem before1 (c : Dev nD) (t : Fin cfg1.N) : (∀ d, (dat1 V c).before 0 t d = iblk1 V c 0 t) ∧ (∀ d, (dat1 V c).before 1 t d = iblk1 V c 1 t)
    ∧ ∀ d, (dat1 V c).before 2 t d = iblk1 V c 2 t := by
  refine ⟨?_, ?_, ?_⟩ <;> exact fun d => ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  sl_whnfR [defs₀, Defs.onTc]
  simp only [(before1 V c t).1, (before1 V c t).2.1, (before1 V c t).2.2]
  iintro ⟨HΦ, Ho, ⟨%d0, H0⟩, ⟨%d1, H1⟩, ⟨%d2, H2⟩, ⟨%d3, H3⟩⟩
  iapply (sound_kernel1 c _)
  iframe H0 H1 H2
  isplitl [H3]; · iexists _; iexact H3
  iintro HB
  dsimp only [dat1]
  iframe
  iexact Ho

end Cert.KernelIdeal.Hand

end
-- ==== Proof.KI.Reg2.lean ====
import proofs.«405441_j33243046871479_1_alg».proof.Proof.KI.RegLib

noncomputable section

namespace Cert.KernelIdeal.Hand

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S5000x128 .f32) (x1 : Vec F S128x128 .f32) (x2 : Vec F S5000x1 .f32) : Vec F S5000x128 .f32 :=
  View.canon [⟨rX, k2_pay1 (View.ld x0 rX) (View.ld x1 rW) (View.ld x2 rN)⟩]

theorem sound_kernel2 (c : Dev nD) {E i arg1 harg1 arg2 harg2 arg3 harg3 arg4 harg4 x0 x1 x2} (K : PUnit → sProp (MT nD τ sig Unit (Elt F) ℕ (UR sig nD τ) ℕ)) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out2_3 x0 x1 x2)) -∗ K ⟨⟩))
      ⊢ wp frame (wpE (defs₀ (F := F)) Variants.none c none) E (cc2__pre_kernel i arg1 harg1 arg2 harg2 arg3 harg3 arg4 harg4) K := by
  simp only [cc2__pre_kernel_eq_skeleton]; unfold cc2__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (coverX _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by dsimp only [dat2]

theorem before2 (c : Dev nD) (t : Fin cfg2.N) : (∀ d, (dat2 V c).before 0 t d = iblk2 V c 0 t) ∧ (∀ d, (dat2 V c).before 1 t d = iblk2 V c 1 t)
    ∧ ∀ d, (dat2 V c).before 2 t d = iblk2 V c 2 t := by
  refine ⟨?_, ?_, ?_⟩ <;> exact fun d => ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  sl_whnfR [defs₀, Defs.onTc]
  simp only [(before2 V c t).1, (before2 V c t).2.1, (before2 V c t).2.2]
  iintro ⟨HΦ, Ho, ⟨%d0, H0⟩, ⟨%d1, H1⟩, ⟨%d2, H2⟩, ⟨%d3, H3⟩⟩
  iapply (sound_kernel2 c _)
  iframe H0 H1 H2
  isplitl [H3]; · iexists _; iexact H3
  iintro HB
  dsimp only [dat2]
  iframe
  iexact Ho

end Cert.KernelIdeal.Hand

end
-- ==== Proof.KI.Reg3.lean ====
import proofs.«405441_j33243046871479_1_alg».proof.Proof.KI.RegLib

noncomputable section

namespace Cert.KernelIdeal.Hand

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_3 (x0 : Vec F S5000x128 .f32) (x1 : Vec F S5000x1 .f32) (x2 : Vec F S1x128 .f32) : Vec F S5000x128 .f32 :=
  View.canon [⟨rX, k3_pay1 (View.ld x0 rX) (View.ld x1 rN) (View.ld x2 rB)⟩]

theorem sound_kernel3 (c : Dev nD) {E i arg1 harg1 arg2 harg2 arg3 harg3 arg4 harg4 x0 x1 x2} (K : PUnit → sProp (MT nD τ sig Unit (Elt F) ℕ (UR sig nD τ) ℕ)) :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2 ∗ owns c arg4 fullShare (out3_3 x0 x1 x2)) -∗ K ⟨⟩))
      ⊢ wp frame (wpE (defs₀ (F := F)) Variants.none c none) E (cc3__post_kernel i arg1 harg1 arg2 harg2 arg3 harg3 arg4 harg4) K := by
  simp only [cc3__post_kernel_eq_skeleton]; unfold cc3__post_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (coverX _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) : (dat3 V c).after 3 t = out3_3 (iblk3 V c 0 t) (iblk3 V c 1 t) (iblk3 V c 2 t) := by dsimp only [dat3]

theorem before3 (c : Dev nD) (t : Fin cfg3.N) : (∀ d, (dat3 V c).before 0 t d = iblk3 V c 0 t) ∧ (∀ d, (dat3 V c).before 1 t d = iblk3 V c 1 t)
    ∧ ∀ d, (dat3 V c).before 2 t d = iblk3 V c 2 t := by
  refine ⟨?_, ?_, ?_⟩ <;> exact fun d => ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  sl_whnfR [defs₀, Defs.onTc]
  simp only [(before3 V c t).1, (before3 V c t).2.1, (before3 V c t).2.2]
  iintro ⟨HΦ, Ho, ⟨%d0, H0⟩, ⟨%d1, H1⟩, ⟨%d2, H2⟩, ⟨%d3, H3⟩⟩
  iapply (sound_kernel3 c _)
  iframe H0 H1 H2
  isplitl [H3]; · iexists _; iexact H3
  iintro HB
  dsimp only [dat3]
  iframe
  iexact Ho

end Cert.KernelIdeal.Hand

end
-- ==== Proof.KI.Reg4.lean ====
import proofs.«405441_j33243046871479_1_alg».proof.Proof.Gen.KernelIdeal.Launch
import proofs.«405441_j33243046871479_1_alg».proof.Proof.Gen.KernelIdeal.Skeleton
import proofs.«405441_j33243046871479_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 := by decide +kernel

abbrev cond4_1 (i : grid4.Coords) : Prop := k4_cond2 i = 1#1
theorem hcond4_1 : ∀ t : Fin cfg4.N, cond4_1 (grid4.coords t) ↔ t.val % 10 = 9 := by decide +kernel

theorem idle4_2 : ∀ t : Fin cfg4.N, ¬t.val % 10 = 9 → cfg4.idle 2 (grid4.coords t) = true ∧ (cfg4.win 2).flush t = false := by decide +kernel
theorem live4_2 : ∀ t : Fin cfg4.N, t.val % 10 = 9 → cfg4.idle 2 (grid4.coords t) = false := by decide +kernel

abbrev VO4_2 : View sig .tc .vmem S64x128 .f32 := (Memref.whole cc4_stg2_0 : Memref sig .tc .vmem S64x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x128 .f32 := win4_2.stage (cfg4.slots t 2)
abbrev hs4_2 (t : Fin cfg4.N) : (ms4_2 t).IsWhole := hstage4_2 ((cfg4.slots t 2).cast nbuf4_2)
abbrev scM4_0 : Memref sig .tc .vmem S64x128 .f32 := Memref.whole cc4_scratch0
abbrev scM4_1 : Memref sig .tc .vmem S64x1 .f32 := Memref.whole cc4_scratch1

def kept4 (P : sProp 𝕄) : sProp 𝕄 :=
  iprop(iprop(P ∗ Pipeline.scopedRestBut (Ix := Unit) (Name := ℕ) (U := UR sig nD τ) (Lvl := ℕ) (Val := Elt F) spec4 c [cc4_scratch0, cc4_scratch1]) ∗ (∃ r, prngReg c r))

theorem PhiA4_eq : (Pipeline.ΦA spec4 c : sProp 𝕄)
    = kept4 c iprop((∃ d, owns (c : Thread nD τ) scM4_0 fullShare d) ∗ (∃ d, owns (c : Thread nD τ) scM4_1 fullShare d)) := by
  unfold Pipeline.ΦA kept4; rw [scopedRest4_split]; simp only [scM4_0, scM4_1, owns_whole]; try rfl

-- Reading through a whole memref is a bijection on contents: owning it at `x` is holding the one contents that read `x`.
theorem owns_eq_unread {sp : Space} {sh : Shape} {e : EltTy} {m : Memref sig .tc sp sh e} (h : m.IsWhole) (x : sh.Idx → Elt F e) :
    (owns (c : Thread nD τ) m fullShare x : sProp 𝕄) = (m.view.loc (c : Thread nD τ) ↦[m.view.set]{fullShare} h.unread x) := by
  unfold owns
  refine BI.equiv_iff.mp ⟨?_, ?_⟩ <;> show (_ : sProp 𝕄) ⊢ _
  · iintro ⟨%f, %hf, H⟩; obtain rfl := h.eq_unread hf; iexact H
  · iintro H; iexists _; isplitr; · ipureintro; exact h.read_unread _
    iexact H

-- Writes whose pieces cover the shape fix every element read afterwards, whatever was there before.
theorem owns_cover {sh : Shape} {e : EltTy} {m : Memref sig .tc .vmem sh e} (v : View sig .tc .vmem sh e) {L : List (View.Piece (Elt F) sh e)}
    (hL : ∀ y, ∃ pc ∈ L, y ∈ pc.1.set) :
    iprop(∃ f, m.view.loc (c : Thread nD τ) ↦[m.view.set]{fullShare} m.view.writes (Elt F) f L)
      ⊢ (owns (c : Thread nD τ) m fullShare (v.read (Elt F) (v.writes (Elt F) v.junk L)) : sProp 𝕄) := by
  unfold owns; iintro ⟨%f, H⟩; iexists m.view.writes (Elt F) f L; isplitr; · ipureintro; exact View.read_writes_of_cover _ _ _ _ _ hL
  iexact H

section
variable (i : grid4.Coords) (arg1 : Memref sig .tc .vmem S5000x128 .f32) (harg1 : arg1.IsWhole) (arg2 : Memref sig .tc .vmem S5000x1 .i32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole)

section
variable (hc0 : cond4_0 i) (hc1 : ¬cond4_1 i) (x0 : Vec F S5000x128 .f32) (x1 : Vec F S5000x1 .i32)

set_option maxHeartbeats 1000000 in
def kernelRun4_A :
    Σ' (L2 : List (View.Piece (Elt F) S64x128 .f32)) (LS0 : List (View.Piece (Elt F) S64x128 .f32)), { LS1 : List (View.Piece (Elt F) S64x1 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨[], ?_, ?_, fun xi2 E K => ?run⟩
  case run =>
    simp only [cc4__pool_kernel_eq_skeleton, owns_eq_unread c harg1, owns_eq_unread c harg2, owns_eq_unread c harg3]; unfold cc4__pool_kernel_skel owns
    iintro ⟨H0, H1, H2, ⟨%ds0, %fs0, -, HS0⟩, ⟨%ds1, %fs1, -, HS1⟩, Hk⟩
    sl_exec (disch := first | exact hc0 | exact hc1)
    sl_step
    iapply Hk
    iframe H0 H1 H2
    isplitl [HS0]; · iexists _; iexact HS0
    iexists _; iexact HS1

def out4_A_2 : Vec F S64x128 .f32 :=
  VO4_2.read (Elt F) (VO4_2.writes (Elt F) VO4_2.junk (kernelRun4_A c i arg1 harg1 arg2 harg2 arg3 harg3 arg4 harg4 arg5 harg5 hc0 hc1 x0 x1).1)

theorem scover4_A_0 (y : S64x128.Idx) : ∃ pc ∈ (kernelRun4_A c i arg1 harg1 arg2 harg2 arg3 harg3 arg4 harg4 arg5 harg5 hc0 hc1 x0 x1).2.1, y ∈ pc.1.set :=
  View.cover_of_tiledL _ S64x128.size (by sl_kernel_rfl) y

def sout4_A_0 : Vec F S64x128 .f32 :=
  scM4_0.view.read (Elt F) (scM4_0.view.writes (Elt F) scM4_0.view.junk (kernelRun4_A c i arg1 harg1 arg2 harg2 arg3 harg3 arg4 harg4 arg5 harg5 hc0 hc1 x0 x1).2.1)

theorem scover4_A_1 (y : S64x1.Idx) : ∃ pc ∈ (kernelRun4_A c i arg1 harg1 arg2 harg2 arg3 harg3 arg4 harg4 arg5 harg5 hc0 hc1 x0 x1).2.2.1, y ∈ pc.1.set :=
  View.cover_of_tiledL _ S64x1.size (by sl_kernel_rfl) y

def sout4_A_1 : Vec F S64x1 .f32 :=
  scM4_1.view.read (Elt F) (scM4_1.view.writes (Elt F) scM4_1.view.junk (kernelRun4_A c i arg1 harg1 arg2 harg2 arg3 harg3 arg4 harg4 arg5 harg5 hc0 hc1 x0 x1).2.2.1)

def outs4_A : Vec F S64x128 .f32 × Vec F S64x128 .f32 × Vec F S64x1 .f32 :=
  (out4_A_2 c i arg1 harg1 arg2 harg2 arg3 harg3 arg4 harg4 arg5 harg5 hc0 hc1 x0 x1, sout4_A_0 c i arg1 harg1 arg2 harg2 arg3 harg3 arg4 harg4 arg5 harg5 hc0 hc1 x0 x1, sout4_A_1 c i arg1 harg1 arg2 harg2 arg3 harg3 arg4 harg4 arg5 harg5 hc0 hc1 x0 x1)

end

section
variable (hc0 : ¬cond4_0 i) (hc1 : ¬cond4_1 i) (x0 : Vec F S5000x128 .f32) (x1 : Vec F S5000x1 .i32) (xs0 : Vec F S64x128 .f32) (xs1 : Vec F S64x1 .f32)

set_option maxHeartbeats 1000000 in
def kernelRun4_B :
    Σ' (L2 : List (View.Piece (Elt F) S64x128 .f32)) (LS0 : List (View.Piece (Elt F) S64x128 .f32)), { LS1 : List (View.Piece (Elt F) S64x1 .f32) //
      ∀ (xi2 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨[], ?_, ?_, fun xi2 E K => ?run⟩
  case run =>
    simp only [cc4__pool_kernel_eq_skeleton, owns_eq_unread c harg1, owns_eq_unread c harg2, owns_eq_unread c harg3, owns_eq_unread c harg4, owns_eq_unread c harg5]; unfold cc4__pool_kernel_skel
    iintro ⟨H0, H1, H2, HS0, HS1, Hk⟩
    sl_exec (disch := first | exact hc0 | exact hc1)
    sl_step
    iapply Hk
    iframe H0 H1 H2
    isplitl [HS0]; · iexists _; iexact HS0
    iexists _; iexact HS1

def out4_B_2 : Vec F S64x128 .f32 :=
  VO4_2.read (Elt F) (VO4_2.writes (Elt F) VO4_2.junk (kernelRun4_B c i arg1 harg1 arg2 harg2 arg3 harg3 arg4 harg4 arg5 harg5 hc0 hc1 x0 x1 xs0 xs1).1)

theorem scover4_B_0 (y : S64x128.Idx) : ∃ pc ∈ (kernelRun4_B c i arg1 harg1 arg2 harg2 arg3 harg3 arg4 harg4 arg5 harg5 hc0 hc1 x0 x1 xs0 xs1).2.1, y ∈ pc.1.set :=
  View.cover_of_tiledL _ S64x128.size (by sl_kernel_rfl) y

def sout4_B_0 : Vec F S64x128 .f32 :=
  scM4_0.view.read (Elt F) (scM4_0.view.writes (Elt F) scM4_0.view.junk (kernelRun4_B c i arg1 harg1 arg2 harg2 arg3 harg3 arg4 harg4 arg5 harg5 hc0 hc1 x0 x1 xs0 xs1).2.1)

theorem scover4_B_1 (y : S64x1.Idx) : ∃ pc ∈ (kernelRun4_B c i arg1 harg1 arg2 harg2 arg3 harg3 arg4 harg4 arg5 harg5 hc0 hc1 x0 x1 xs0 xs1).2.2.1, y ∈ pc.1.set :=
  View.cover_of_tiledL _ S64x1.size (by sl_kernel_rfl) y

def sout4_B_1 : Vec F S64x1 .f32 :=
  scM4_1.view.read (Elt F) (scM4_1.view.writes (Elt F) scM4_1.view.junk (kernelRun4_B c i arg1 harg1 arg2 harg2 arg3 harg3 arg4 harg4 arg5 harg5 hc0 hc1 x0 x1 xs0 xs1).2.2.1)

def outs4_B : Vec F S64x128 .f32 × Vec F S64x128 .f32 × Vec F S64x1 .f32 :=
  (out4_B_2 c i arg1 harg1 arg2 harg2 arg3 harg3 arg4 harg4 arg5 harg5 hc0 hc1 x0 x1 xs0 xs1, sout4_B_0 c i arg1 harg1 arg2 harg2 arg3 harg3 arg4 harg4 arg5 harg5 hc0 hc1 x0 x1 xs0 xs1, sout4_B_1 c i arg1 harg1 arg2 harg2 arg3 harg3 arg4 harg4 arg5 harg5 hc0 hc1 x0 x1 xs0 xs1)

end

section
variable (hc0 : ¬cond4_0 i) (hc1 : cond4_1 i) (x0 : Vec F S5000x128 .f32) (x1 : Vec F S5000x1 .i32) (xs0 : Vec F S64x128 .f32) (xs1 : Vec F S64x1 .f32)

set_option maxHeartbeats 1000000 in
def kernelRun4_C :
    Σ' (L2 : List (View.Piece (Elt F) S64x128 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc4__pool_kernel i arg1 harg1 arg2 harg2 arg3 harg3 arg4 harg4 arg5 harg5) K } := by
  refine ⟨?_, ?_, ?_, fun E K => ?run⟩
  case run =>
    simp only [cc4__pool_kernel_eq_skeleton, owns_eq_unread c harg1, owns_eq_unread c harg2, owns_eq_unread c harg4, owns_eq_unread c harg5]; unfold cc4__pool_kernel_skel owns
    iintro ⟨H0, H1, ⟨%d2, %f2, -, H2⟩, HS0, HS1, Hk⟩
    sl_exec (disch := first | exact hc0 | exact hc1)
    sl_step
    iapply Hk
    iframe H0 H1
    isplitl [H2]; · iexists _; iexact H2
    isplitl [HS0]; · iexists _; iexact HS0
    iexists _; iexact HS1

theorem cover4_C_2 (y : S64x128.Idx) : ∃ pc ∈ (kernelRun4_C c i arg1 harg1 arg2 harg2 arg3 harg3 arg4 harg4 arg5 harg5 hc0 hc1 x0 x1 xs0 xs1).1, y ∈ pc.1.set :=
  View.cover_of_tiledL _ S64x128.size (by sl_kernel_rfl) y

def out4_C_2 : Vec F S64x128 .f32 :=
  VO4_2.read (Elt F) (VO4_2.writes (Elt F) VO4_2.junk (kernelRun4_C c i arg1 harg1 arg2 harg2 arg3 harg3 arg4 harg4 arg5 harg5 hc0 hc1 x0 x1 xs0 xs1).1)

theorem scover4_C_0 (y : S64x128.Idx) : ∃ pc ∈ (kernelRun4_C c i arg1 harg1 arg2 harg2 arg3 harg3 arg4 harg4 arg5 harg5 hc0 hc1 x0 x1 xs0 xs1).2.1, y ∈ pc.1.set :=
  View.cover_of_tiledL _ S64x128.size (by sl_kernel_rfl) y

def sout4_C_0 : Vec F S64x128 .f32 :=
  scM4_0.view.read (Elt F) (scM4_0.view.writes (Elt F) scM4_0.view.junk (kernelRun4_C c i arg1 harg1 arg2 harg2 arg3 harg3 arg4 harg4 arg5 harg5 hc0 hc1 x0 x1 xs0 xs1).2.1)

theorem scover4_C_1 (y : S64x1.Idx) : ∃ pc ∈ (kernelRun4_C c i arg1 harg1 arg2 harg2 arg3 harg3 arg4 harg4 arg5 harg5 hc0 hc1 x0 x1 xs0 xs1).2.2.1, y ∈ pc.1.set :=
  View.cover_of_tiledL _ S64x1.size (by sl_kernel_rfl) y

def sout4_C_1 : Vec F S64x1 .f32 :=
  scM4_1.view.read (Elt F) (scM4_1.view.writes (Elt F) scM4_1.view.junk (kernelRun4_C c i arg1 harg1 arg2 harg2 arg3 harg3 arg4 harg4 arg5 harg5 hc0 hc1 x0 x1 xs0 xs1).2.2.1)

def outs4_C : Vec F S64x128 .f32 × Vec F S64x128 .f32 × Vec F S64x1 .f32 :=
  (out4_C_2 c i arg1 harg1 arg2 harg2 arg3 harg3 arg4 harg4 arg5 harg5 hc0 hc1 x0 x1 xs0 xs1, sout4_C_0 c i arg1 harg1 arg2 harg2 arg3 harg3 arg4 harg4 arg5 harg5 hc0 hc1 x0 x1 xs0 xs1, sout4_C_1 c i arg1 harg1 arg2 harg2 arg3 harg3 arg4 harg4 arg5 harg5 hc0 hc1 x0 x1 xs0 xs1)

end

end

theorem nz4 {n : ℕ} (hn : n + 1 < cfg4.N) : ¬(n + 1) % 10 = 0 := by have : cfg4.N = 10 := N_4; omega

-- The three contents after point `n`: the first point starts afresh, each later one continues from the point before.
def outsAt4 : (n : ℕ) → n < cfg4.N → Vec F S64x128 .f32 × Vec F S64x128 .f32 × Vec F S64x1 .f32
  | 0, hn => outs4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) scM4_1 (Memref.isWhole_whole _) ((hcond4_0 _).mpr rfl) (mt (hcond4_1 _).mp nofun) (iblk4 V c 0 ⟨0, hn⟩) (iblk4 V c 1 ⟨0, hn⟩)
  | n + 1, hn =>
    if h1 : (n + 1) % 10 = 9 then
      outs4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (mt (hcond4_0 ⟨n + 1, hn⟩).mp (nz4 hn)) ((hcond4_1 ⟨n + 1, hn⟩).mpr h1) (iblk4 V c 0 ⟨n + 1, hn⟩) (iblk4 V c 1 ⟨n + 1, hn⟩) (outsAt4 n (Nat.lt_of_succ_lt hn)).2.1 (outsAt4 n (Nat.lt_of_succ_lt hn)).2.2
    else
      outs4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) scM4_1 (Memref.isWhole_whole _) (mt (hcond4_0 ⟨n + 1, hn⟩).mp (nz4 hn)) (mt (hcond4_1 ⟨n + 1, hn⟩).mp h1) (iblk4 V c 0 ⟨n + 1, hn⟩) (iblk4 V c 1 ⟨n + 1, hn⟩) (outsAt4 n (Nat.lt_of_succ_lt hn)).2.1 (outsAt4 n (Nat.lt_of_succ_lt hn)).2.2

theorem outsAt4_A (t : Fin cfg4.N) (h0 : t.val % 10 = 0) (h1 : ¬t.val % 10 = 9) :
    outsAt4 V c t.val t.isLt = (out4_A_2 c (grid4.coords t) (ms4_0 t) (hs4_0 t) (ms4_1 t) (hs4_1 t) (ms4_2 t) (hs4_2 t) scM4_0 (Memref.isWhole_whole _) scM4_1 (Memref.isWhole_whole _) ((hcond4_0 t).mpr h0) (mt (hcond4_1 t).mp h1) (iblk4 V c 0 t) (iblk4 V c 1 t), sout4_A_0 c (grid4.coords t) (ms4_0 t) (hs4_0 t) (ms4_1 t) (hs4_1 t) (ms4_2 t) (hs4_2 t) scM4_0 (Memref.isWhole_whole _) scM4_1 (Memref.isWhole_whole _) ((hcond4_0 t).mpr h0) (mt (hcond4_1 t).mp h1) (iblk4 V c 0 t) (iblk4 V c 1 t), sout4_A_1 c (grid4.coords t) (ms4_0 t) (hs4_0 t) (ms4_1 t) (hs4_1 t) (ms4_2 t) (hs4_2 t) scM4_0 (Memref.isWhole_whole _) scM4_1 (Memref.isWhole_whole _) ((hcond4_0 t).mpr h0) (mt (hcond4_1 t).mp h1) (iblk4 V c 0 t) (iblk4 V c 1 t)) := by
  obtain ⟨n, hn⟩ := t
  cases n with
  | zero => rfl
  | succ n => exact absurd h0 (nz4 hn)

theorem outsAt4_B (t : Fin cfg4.N) (h0 : ¬t.val % 10 = 0) (h1 : ¬t.val % 10 = 9) :
    outsAt4 V c t.val t.isLt = (out4_B_2 c (grid4.coords t) (ms4_0 t) (hs4_0 t) (ms4_1 t) (hs4_1 t) (ms4_2 t) (hs4_2 t) scM4_0 (Memref.isWhole_whole _) scM4_1 (Memref.isWhole_whole _) (mt (hcond4_0 t).mp h0) (mt (hcond4_1 t).mp h1) (iblk4 V c 0 t) (iblk4 V c 1 t) (outsAt4 V c (t.val - 1) (Nat.sub_lt_of_lt t.isLt)).2.1 (outsAt4 V c (t.val - 1) (Nat.sub_lt_of_lt t.isLt)).2.2, sout4_B_0 c (grid4.coords t) (ms4_0 t) (hs4_0 t) (ms4_1 t) (hs4_1 t) (ms4_2 t) (hs4_2 t) scM4_0 (Memref.isWhole_whole _) scM4_1 (Memref.isWhole_whole _) (mt (hcond4_0 t).mp h0) (mt (hcond4_1 t).mp h1) (iblk4 V c 0 t) (iblk4 V c 1 t) (outsAt4 V c (t.val - 1) (Nat.sub_lt_of_lt t.isLt)).2.1 (outsAt4 V c (t.val - 1) (Nat.sub_lt_of_lt t.isLt)).2.2, sout4_B_1 c (grid4.coords t) (ms4_0 t) (hs4_0 t) (ms4_1 t) (hs4_1 t) (ms4_2 t) (hs4_2 t) scM4_0 (Memref.isWhole_whole _) scM4_1 (Memref.isWhole_whole _) (mt (hcond4_0 t).mp h0) (mt (hcond4_1 t).mp h1) (iblk4 V c 0 t) (iblk4 V c 1 t) (outsAt4 V c (t.val - 1) (Nat.sub_lt_of_lt t.isLt)).2.1 (outsAt4 V c (t.val - 1) (Nat.sub_lt_of_lt t.isLt)).2.2) := by
  obtain ⟨n, hn⟩ := t
  cases n with
  | zero => exact absurd rfl h0
  | succ n => exact (dif_neg h1).trans rfl

theorem outsAt4_C (t : Fin cfg4.N) (h0 : ¬t.val % 10 = 0) (h1 : t.val % 10 = 9) :
    outsAt4 V c t.val t.isLt = (out4_C_2 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (iblk4 V c 1 t) (outsAt4 V c (t.val - 1) (Nat.sub_lt_of_lt t.isLt)).2.1 (outsAt4 V c (t.val - 1) (Nat.sub_lt_of_lt t.isLt)).2.2, sout4_C_0 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (iblk4 V c 1 t) (outsAt4 V c (t.val - 1) (Nat.sub_lt_of_lt t.isLt)).2.1 (outsAt4 V c (t.val - 1) (Nat.sub_lt_of_lt t.isLt)).2.2, sout4_C_1 c (grid4.coords t) (ms4_0 t) (hs4_0 t) (ms4_1 t) (hs4_1 t) (ms4_2 t) (hs4_2 t) scM4_0 (Memref.isWhole_whole _) scM4_1 (Memref.isWhole_whole _) (mt (hcond4_0 t).mp h0) ((hcond4_1 t).mpr h1) (iblk4 V c 0 t) (iblk4 V c 1 t) (outsAt4 V c (t.val - 1) (Nat.sub_lt_of_lt t.isLt)).2.1 (outsAt4 V c (t.val - 1) (Nat.sub_lt_of_lt t.isLt)).2.2) := by
  obtain ⟨n, hn⟩ := t
  cases n with
  | zero => exact absurd rfl h0
  | succ n => exact (dif_pos h1).trans rfl

def held4 (p : Vec F S64x128 .f32 × Vec F S64x128 .f32 × Vec F S64x1 .f32) : sProp 𝕄 :=
  kept4 c iprop(owns (c : Thread nD τ) scM4_0 fullShare p.2.1 ∗ owns (c : Thread nD τ) scM4_1 fullShare p.2.2)

def PhiS4 : (n : ℕ) → n ≤ cfg4.N → sProp 𝕄
  | 0, _ => Pipeline.ΦA spec4 c
  | n + 1, hn => held4 c (outsAt4 V c n hn)

theorem PhiS4_pos (n : ℕ) (h : n ≤ cfg4.N) (hz : n ≠ 0) :
    PhiS4 V c n h = held4 c (outsAt4 V c (n - 1) (by omega)) := by
  cases n with
  | zero => exact absurd rfl hz
  | succ n => rfl

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (w : Fin cfg4.W) : (dat4 V c).A w = V c (Pipeline.arrRef spec4 w) := rfl

theorem after4_2 (t : Fin cfg4.N) : (dat4 V c).after 2 t = (outsAt4 V c t.val t.isLt).1 := rfl

theorem before4_0 (t : Fin cfg4.N) (d) : (dat4 V c).before 0 t d = iblk4 V c 0 t :=
  ((dat4 V c).before_in_eq_fetched 0 rfl (fun _ => rfl) (fun _ _ _ => rfl) (fun _ => rfl) t d).trans rfl

theorem before4_1 (t : Fin cfg4.N) (d) : (dat4 V c).before 1 t d = iblk4 V c 1 t :=
  ((dat4 V c).before_in_eq_fetched 1 rfl (fun _ => rfl) (fun _ _ _ => rfl) (fun _ => rfl) t d).trans rfl

theorem PhiS4_zero (n : ℕ) (h : n ≤ cfg4.N) (hz : n = 0) : PhiS4 V c n h = Pipeline.ΦA spec4 c := by subst hz; rfl

-- By cases on the point: the last (`n % 10 = 9`), the first (`n % 10 = 0`), or one between.
set_option maxHeartbeats 4800000 in
theorem sound_body4 (t : Fin cfg4.N) :
    iprop((dat4 V c).Φ t.castSucc ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ ∗ (dat4 V c).leavesExact 0 t ∗ (dat4 V c).leavesExact 1 t ∗ (dat4 V c).leavesExact 2 t)) := by
  unfold bodyAt4
  simp only [before4_0, before4_1]
  rw [show (dat4 V c).owesAt () t.succ = (dat4 V c).owesAt () t.castSucc from rfl,
    show (dat4 V c).Φ t.succ = held4 c (outsAt4 V c t.val t.isLt) from rfl,
    show (dat4 V c).Φ t.castSucc = PhiS4 V c t.val (Nat.le_of_lt t.isLt) from rfl,
    show (dat4 V c).leavesExact 0 t = owns (c : Thread nD τ) (ms4_0 t) fullShare (iblk4 V c 0 t) from rfl,
    show (dat4 V c).leavesExact 1 t = owns (c : Thread nD τ) (ms4_1 t) fullShare (iblk4 V c 1 t) from rfl]
  have hN : t.val < 10 := lt_of_lt_of_eq t.isLt (show cfg4.N = 10 from N_4)
  by_cases h1 : t.val % 10 = 9
  · have h0 : ¬t.val % 10 = 0 := by omega
    rw [show (dat4 V c).leavesExact 2 t = owns (c : Thread nD τ) (ms4_2 t) fullShare (outsAt4 V c t.val t.isLt).1 from by
      unfold Dat.leavesExact; rw [live4_2 t h1]; rfl, outsAt4_C V c t h0 h1, PhiS4_pos V c t.val _ (by omega)]
    unfold out4_C_2 sout4_C_0 sout4_C_1 held4 kept4; dsimp only
    iintro ⟨⟨⟨⟨HS0, HS1⟩, Hr⟩, Hg⟩, Ho, ⟨%d0, H0⟩, ⟨%d1, H1⟩, ⟨%d2, H2⟩⟩
    iapply (kernelRun4_C c (grid4.coords t) _ _ _ _ _ _ _ _ _ _ (mt (hcond4_0 t).mp h0) ((hcond4_1 t).mpr h1) (iblk4 V c 0 t) (iblk4 V c 1 t) _ _).2.2.2 Set.univ _
    iframe H0 H1
    isplitl [H2]; · iexists _; iexact H2
    isplitl [HS0]; · iexact HS0
    isplitl [HS1]; · iexact HS1
    iintro ⟨H0, H1, H2, HS0, HS1⟩
    ihave H2 := owns_cover c VO4_2 (cover4_C_2 c _ _ _ _ _ _ _ _ _ _ _ _ _ _ _ _ _) $$ H2
    ihave HS0 := owns_cover c scM4_0.view (scover4_C_0 c _ _ _ _ _ _ _ _ _ _ _ _ _ _ _ _ _) $$ HS0
    ihave HS1 := owns_cover c scM4_1.view (scover4_C_1 c _ _ _ _ _ _ _ _ _ _ _ _ _ _ _ _ _) $$ HS1
    iframe
  · rw [Dat.leavesExact_idle (dat4 V c) 2 t (idle4_2 t h1).1 (idle4_2 t h1).2]
    by_cases h0 : t.val % 10 = 0
    · rw [outsAt4_A V c t h0 h1, PhiS4_zero V c t.val _ (by omega), PhiA4_eq]
      unfold sout4_A_0 sout4_A_1 held4 kept4; dsimp only
      iintro ⟨⟨⟨⟨HS0, HS1⟩, Hr⟩, Hg⟩, Ho, ⟨%d0, H0⟩, ⟨%d1, H1⟩, ⟨%d2, H2⟩⟩
      iapply (kernelRun4_A c (grid4.coords t) _ _ _ _ _ _ _ _ _ _ ((hcond4_0 t).mpr h0) (mt (hcond4_1 t).mp h1) (iblk4 V c 0 t) (iblk4 V c 1 t)).2.2.2 ((dat4 V c).before 2 t d2) Set.univ _
      iframe H0 H1 H2 HS0 HS1
      iintro ⟨H0, H1, H2, HS0, HS1⟩
      ihave HS0 := owns_cover c scM4_0.view (scover4_A_0 c _ _ _ _ _ _ _ _ _ _ _ _ _ _ _) $$ HS0
      ihave HS1 := owns_cover c scM4_1.view (scover4_A_1 c _ _ _ _ _ _ _ _ _ _ _ _ _ _ _) $$ HS1
      iframe HS0 HS1 Hr Hg Ho H0 H1
      iexists _; iexact H2
    · rw [outsAt4_B V c t h0 h1, PhiS4_pos V c t.val _ (by omega)]
      unfold sout4_B_0 sout4_B_1 held4 kept4; dsimp only
      iintro ⟨⟨⟨⟨HS0, HS1⟩, Hr⟩, Hg⟩, Ho, ⟨%d0, H0⟩, ⟨%d1, H1⟩, ⟨%d2, H2⟩⟩
      iapply (kernelRun4_B c (grid4.coords t) _ _ _ _ _ _ _ _ _ _ (mt (hcond4_0 t).mp h0) (mt (hcond4_1 t).mp h1) (iblk4 V c 0 t) (iblk4 V c 1 t) _ _).2.2.2 ((dat4 V c).before 2 t d2) Set.univ _
      iframe H0 H1 H2
      isplitl [HS0]; · iexact HS0
      isplitl [HS1]; · iexact HS1
      iintro ⟨H0, H1, H2, HS0, HS1⟩
      ihave HS0 := owns_cover c scM4_0.view (scover4_B_0 c _ _ _ _ _ _ _ _ _ _ _ _ _ _ _ _ _) $$ HS0
      ihave HS1 := owns_cover c scM4_1.view (scover4_B_1 c _ _ _ _ _ _ _ _ _ _ _ _ _ _ _ _ _) $$ HS1
      iframe HS0 HS1 Hr Hg Ho H0 H1
      iexists _; iexact H2

theorem body_obligation4 : BodyObligation (dat4 (F := F) V c) (defs₀ (F := F)) Variants.none () Set.univ := fun t => by
  rw [bigSep_W4, bigSep_W4]
  exact sound_body4 V c t

theorem hin4 : Pipeline.ΦA spec4 c ⊢ (dat4 V c).Φ 0 := Idealize.SL.BI.Entails.refl _

theorem hout4 : (dat4 V c).Φ (Fin.last cfg4.N) ⊢ Pipeline.ΦA spec4 c := by
  rw [show (dat4 V c).Φ (Fin.last cfg4.N) = PhiS4 V c cfg4.N (Nat.le_refl _) from rfl, PhiS4_pos V c cfg4.N _ (by have : cfg4.N = 10 := N_4; omega), PhiA4_eq]
  unfold held4 kept4
  iintro ⟨⟨⟨HS0, HS1⟩, Hr⟩, Hg⟩
  iframe Hr Hg
  isplitl [HS0]; · iexists _; iexact HS0
  iexists _; iexact HS1

end Cert.KernelIdeal.Hand

end
-- ==== Proof.KI.Chain.lean ====
import proofs.«405441_j33243046871479_1_alg».proof.Proof.KI.Reg0
import proofs.«405441_j33243046871479_1_alg».proof.Proof.KI.Reg1
import proofs.«405441_j33243046871479_1_alg».proof.Proof.KI.Reg2
import proofs.«405441_j33243046871479_1_alg».proof.Proof.KI.Reg3
import proofs.«405441_j33243046871479_1_alg».proof.Proof.KI.Reg4
import proofs.«405441_j33243046871479_1_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- A region changes no buffer but the array of its one output window `o`. -/
theorem withArrays_keep {cfg : Pipeline.Cfg sig Λ₀} {c : Dev nD} (dat : Dat τ (Elt F) Unit ℕ (UR sig nD τ) ℕ cfg c)
    (W : Valuation τ sig (Elt F)) (hA : ∀ w, dat.A w = W (Pipeline.arrRef cfg.spec w)) (hinj : Function.Injective (Pipeline.arrRef cfg.spec))
    (o : Fin cfg.W) (ho : ∀ w, w ≠ o → (cfg.win w).isOut = false) (b : Ref sig .tc) (hb : b ≠ Pipeline.arrRef cfg.spec o) :
    Pipeline.withArrays cfg.spec c W (dat.arrAt · cfg.N) b = W b := by
  by_cases h : ∃ w, Pipeline.arrRef cfg.spec w = b
  · obtain ⟨w, rfl⟩ := h
    rw [Pipeline.withArrays_arr cfg.spec hinj]
    exact (dat.arrAt_in w (ho w fun e => hb (e ▸ rfl)) _).trans (hA w)
  · exact Pipeline.withArrays_of_ne cfg.spec c _ _ b fun w e => h ⟨w, e⟩

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_keep (c : Dev nD) (b : Ref sig .tc) (hb : b ≠ main_v14) :
    W2 m c (Proc.devRef .tc b) = W1 m c (Proc.devRef .tc b) :=
  withArrays_keep (dat0 (V1 m) c) (W1 m c) (A_eq0 (V1 m) c) launch0.win.arr_inj 3 (by decide) b hb

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N :=
  Pipeline.withArrays_arr spec1 launch1.win.arr_inj c _ _ w
theorem W4_keep (c : Dev nD) (b : Ref sig .tc) (hb : b ≠ main_v27) :
    W4 m c (Proc.devRef .tc b) = W3 m c (Proc.devRef .tc b) :=
  withArrays_keep (dat1 (V3 m) c) (W3 m c) (A_eq1 (V3 m) c) launch1.win.arr_inj 3 (by decide) b hb

abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N :=
  Pipeline.withArrays_arr spec2 launch2.win.arr_inj c _ _ w
theorem W6_keep (c : Dev nD) (b : Ref sig .tc) (hb : b ≠ main_v29) :
    W6 m c (Proc.devRef .tc b) = W5 m c (Proc.devRef .tc b) :=
  withArrays_keep (dat2 (V5 m) c) (W5 m c) (A_eq2 (V5 m) c) launch2.win.arr_inj 3 (by decide) b hb

abbrev W7 : Dev nD → Valuation τ sig (Elt F) := fun c => StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N :=
  Pipeline.withArrays_arr spec3 launch3.win.arr_inj c _ _ w
theorem W8_keep (c : Dev nD) (b : Ref sig .tc) (hb : b ≠ main_v42) :
    W8 m c (Proc.devRef .tc b) = W7 m c (Proc.devRef .tc b) :=
  withArrays_keep (dat3 (V7 m) c) (W7 m c) (A_eq3 (V7 m) c) launch3.win.arr_inj 3 (by decide) b hb

abbrev W9 : Dev nD → Valuation τ sig (Elt F) := fun c => StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N :=
  Pipeline.withArrays_arr spec4 launch4.win.arr_inj c _ _ w
theorem W10_keep (c : Dev nD) (b : Ref sig .tc) (hb : b ≠ main_v44) :
    W10 m c (Proc.devRef .tc b) = W9 m c (Proc.devRef .tc b) :=
  withArrays_keep (dat4 (V9 m) c) (W9 m c) (A_eq4 (V9 m) c) launch4.win.arr_inj 2 (by decide) b hb

abbrev W11 : Dev nD → Valuation τ sig (Elt F) := fun c => StableHlo.after hostOps5 (W10 m c)
abbrev W12 : Dev nD → Valuation τ sig (Elt F) := fun c => StableHlo.after hostOps5_1 (W11 m c)
abbrev W13 : Dev nD → Valuation τ sig (Elt F) := fun c => StableHlo.after hostOps5_2 (W12 m c)
abbrev W14 : Dev nD → Valuation τ sig (Elt F) := fun c => StableHlo.after hostOps5_3 (W13 m c)
abbrev W15 : Dev nD → Valuation τ sig (Elt F) := fun c => StableHlo.after hostOps5_4 (W14 m c)

/-- A buffer that no host operation and no region writes holds at the end what it held at the launch. -/
theorem W15_kept (c : Dev nD) (r : Ref sig .tc)
    (h : r ∉ hostOps0_W ++ hostOps1_W ++ hostOps2_W ++ hostOps3_W ++ hostOps4_W ++ hostOps5_W ++ hostOps5_1_W ++ hostOps5_2_W
      ++ hostOps5_3_W ++ hostOps5_4_W ++ [main_v14, main_v27, main_v29, main_v42, main_v44]) :
    W15 m c (Proc.devRef .tc r) = m ((c : Thread nD τ).loc r) := by
  simp only [List.mem_append, not_or] at h
  obtain ⟨⟨⟨⟨⟨⟨⟨⟨⟨⟨h0, h1⟩, h2⟩, h3⟩, h4⟩, h5⟩, h51⟩, h52⟩, h53⟩, h54⟩, ho⟩ := h
  have e (x) (hx : x ∈ [main_v14, main_v27, main_v29, main_v42, main_v44]) : r ≠ x := fun e => ho (e ▸ hx)
  calc W15 m c (Proc.devRef .tc r)
    _ = W14 m c (Proc.devRef .tc r) := StableHlo.after_of_writes_sub hostOps5_4 _ hostOps5_4_writes h54
    _ = W13 m c (Proc.devRef .tc r) := StableHlo.after_of_writes_sub hostOps5_3 _ hostOps5_3_writes h53
    _ = W12 m c (Proc.devRef .tc r) := StableHlo.after_of_writes_sub hostOps5_2 _ hostOps5_2_writes h52
    _ = W11 m c (Proc.devRef .tc r) := StableHlo.after_of_writes_sub hostOps5_1 _ hostOps5_1_writes h51
    _ = W10 m c (Proc.devRef .tc r) := StableHlo.after_of_writes_sub hostOps5 _ hostOps5_writes h5
    _ = W9 m c (Proc.devRef .tc r) := W10_keep m c r (e _ (by simp))
    _ = W8 m c (Proc.devRef .tc r) := StableHlo.after_of_writes_sub hostOps4 _ hostOps4_writes h4
    _ = W7 m c (Proc.devRef .tc r) := W8_keep m c r (e _ (by simp))
    _ = W6 m c (Proc.devRef .tc r) := StableHlo.after_of_writes_sub hostOps3 _ hostOps3_writes h3
    _ = W5 m c (Proc.devRef .tc r) := W6_keep m c r (e _ (by simp))
    _ = W4 m c (Proc.devRef .tc r) := StableHlo.after_of_writes_sub hostOps2 _ hostOps2_writes h2
    _ = W3 m c (Proc.devRef .tc r) := W4_keep m c r (e _ (by simp))
    _ = W2 m c (Proc.devRef .tc r) := StableHlo.after_of_writes_sub hostOps1 _ hostOps1_writes h1
    _ = W1 m c (Proc.devRef .tc r) := W2_keep m c r (e _ (by simp))
    _ = W0 m c (Proc.devRef .tc r) := StableHlo.after_of_writes_sub hostOps0 _ hostOps0_writes h0
    _ = m ((c : Thread nD τ).loc r) := rfl

end Cert.KernelIdeal.Hand

end
-- ==== Proof.KI.Family.lean ====
import proofs.«405441_j33243046871479_1_alg».proof.Proof.KI.Chain

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Run.lean ====
import proofs.«405441_j33243046871479_1_alg».proof.Proof.KI.Family

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- One region as an item of @main, from the contents `Wi` to `Wo`, which differ in the region's arrays only. -/
def regSeg (p : Fin 5) (lf : Pipeline.LaunchFacts (nD := nD) (τ := τ) cfgs p) (Wi Wo : Dev nD → Valuation τ sig (Elt F))
    (hb : ∀ c, BodyObligation (pdats m p c) (defs₀ (F := F)) Variants.none () Set.univ)
    (hq : ∀ c w, (pdats m p c).q w = fullShare) (hA : ∀ c w, (pdats m p c).A w = Wi c (Pipeline.arrRef (cfgs p).spec w))
    (howed : ∀ c t, (pdats m p c).owed t = 0) (hrec : ∀ c, (pdats m p c).recorded 0 = Set.univ)
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄))
    (hWo : ∀ c, Wo c = Pipeline.withArrays (cfgs p).spec c (Wi c) ((pdats m p c).arrAt · (cfgs p).N)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    iintro ⟨Hp, -, Hr⟩
    iapply hin c
    unfold Pipeline.ΦA
    isplitl [Hr]; · iexact Hr
    iexact Hp
  hout c := by
    rw [Pipeline.ownSems0_none]
    iintro H
    ihave H' := hout c $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c b) (fun b => Wo c b) ((pdats m p c).arrAt · (cfgs p).N)
      (fun w => by rw [hWo]; exact (Pipeline.withArrays_arr (cfgs p).spec lf.win.arr_inj c (Wi c) ((pdats m p c).arrAt · (cfgs p).N) w).symm)
      (fun b hb => by rw [hWo]; exact Pipeline.withArrays_of_ne (cfgs p).spec c (Wi c) ((pdats m p c).arrAt · (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regSeg m 0 launch0 (W1 m) (W2 m) (body_obligation0 (V1 m)) (fun _ _ => rfl) (fun _ _ => rfl) (fun _ _ => rfl) (fun _ => rfl)
  (fun _ => .rfl) (fun _ => .rfl) fun _ => rfl
def reg1 := regSeg m 1 launch1 (W3 m) (W4 m) (body_obligation1 (V3 m)) (fun _ _ => rfl) (fun _ _ => rfl) (fun _ _ => rfl) (fun _ => rfl)
  (fun _ => .rfl) (fun _ => .rfl) fun _ => rfl
def reg2 := regSeg m 2 launch2 (W5 m) (W6 m) (body_obligation2 (V5 m)) (fun _ _ => rfl) (fun _ _ => rfl) (fun _ _ => rfl) (fun _ => rfl)
  (fun _ => .rfl) (fun _ => .rfl) fun _ => rfl
def reg3 := regSeg m 3 launch3 (W7 m) (W8 m) (body_obligation3 (V7 m)) (fun _ _ => rfl) (fun _ _ => rfl) (fun _ _ => rfl) (fun _ => rfl)
  (fun _ => .rfl) (fun _ => .rfl) fun _ => rfl
def reg4 := regSeg m 4 launch4 (W9 m) (W10 m) (body_obligation4 (V9 m)) (fun _ _ => rfl) (fun _ _ => rfl) (fun _ _ => rfl) (fun _ => rfl)
  (hin4 (V9 m)) (hout4 (V9 m)) fun _ => rfl

abbrev Tₙ (c : Dev nD) : sProp 𝕄 := iprop(StableHlo.held (c : Thread nD τ) (Pipeline.ucRefs τ sig) (W15 m c) ∗ ∃ r, prngReg c r)
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .host (hseg hostOps5_1 hostOps5_1_sub hostOps5_1_fresh (W11 m)),
    .host (hseg hostOps5_2 hostOps5_2_sub hostOps5_2_fresh (W12 m)),
    .host (hseg hostOps5_3 hostOps5_3_sub hostOps5_3_fresh (W13 m)),
    .host (hseg hostOps5_4 hostOps5_4_sub hostOps5_4_fresh (W14 m)) ]
theorem last_assoc (c : Dev nD) :
    (iprop(StableHlo.held (c : Thread nD τ) (Pipeline.ucRefs τ sig) (W15 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO
theorem main_run (c : Dev nD) : main (F := F) c = Pipeline.Seg.run (segs m) := (main_chain c).trans (by chain_rfl)
set_option backward.isDefEq.respectTransparency.types false in
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W15 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => last_assoc m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

/-- Every run ends with the result at the last contents' value and every argument as it was launched. -/
theorem run_result (ρ : Dev nD → PrngReg) : θ_run defs (onTc (τ := τ) (main (F := F))) ⟨m, fun _ => 0, ρ⟩ (fun r => ∀ c : Dev nD,
      r.2.mem ((c.tc : Thread nD τ).loc main_v59) = W15 m c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have k (b : Ref sig .tc) (hs : ¬ (Proc.devRef .tc b : DevRef τ sig).isScoped) (hk) :
        r.2.mem ((c.tc : Thread nD τ).loc b) = m ((c.tc : Thread nD τ).loc b) := (h c _ (mem_uc b hs)).trans (W15_kept m c b hk)
    ⟨h c _ (mem_uc main_v59 (by decide)), k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide), k main_arg13 (by decide) (by decide), k main_arg14 (by decide) (by decide)⟩) (run_all m ρ)

theorem frame (ρ : Dev nD → PrngReg) : θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_result m ρ)

end Cert.KernelIdeal.Hand

end
-- ==== Proof.KI.Val0.lean ====
import proofs.«405441_j33243046871479_1_alg».proof.Proof.KI.Reg0
import proofs.«405441_j33243046871479_1_alg».proof.Proof.Gen.ReferenceIdeal.Read

noncomputable section

namespace Cert.KernelIdeal.Hand

open Cert.KernelIdeal Cert.KernelIdeal.Gen
open Idealize.ShloMosaic Idealize.ShloMosaic.TcCoe
open Idealize.ShloMosaic.ValueIdx
open scoped BigOperators

-- Entry (r, q) is row r of x times column q of w, scaled by the norm of row r.
def preSpec (x : Vec Ideal S50000x128 .f32) (w : Vec Ideal S128x128 .f32) (n : Vec Ideal S50000x1 .f32) : Vec Ideal S50000x128 .f32 :=
  fun i => (∑ k : Fin 128, x (ix2 (i 0) k) * w (ix2 k (i 1))) * n (ix2 (i 0) ⟨0, Nat.one_pos⟩)

theorem ix2_surj {n0 n1 : ℕ} (j : (⟨2, ![n0, n1]⟩ : Shape).Idx) : ∃ (p : Fin n0) (q : Fin n1), j = ix2 p q := ⟨j 0, j 1, eq_ix2 j⟩

theorem k0_pay1_apply (x0 : Vec Ideal S5000x128 .f32) (x1 : Vec Ideal S128x128 .f32) (x2 : Vec Ideal S5000x1 .f32) (p : Fin 5000) (q : Fin 128) :
    k0_pay1 (F := Ideal) x0 x1 x2 (ix2 p q) = (∑ k : Fin 128, x0 (ix2 p k) * x1 (ix2 k q)) * x2 (ix2 p ⟨0, Nat.one_pos⟩) := by
  unfold k0_pay1
  simp only [matmul, shapeCast_self]
  refine (mulf_apply _ _ _).trans (congrArg₂ (· * ·) ?_ (broadcastTo_apply x2 _ _ _ (Fin.forall_fin_two.2 ⟨rfl, rfl⟩)))
  rw [Ideal.matmul_constant_zero_apply, ← Equiv.sum_comp (contrEquiv1 _ 128 rfl rfl).symm]
  refine Finset.sum_congr rfl fun k _ => ?_
  have hk := contrEquiv1_symm_val dot_S5000x128_S128x128_S5000x128_1_0_0_1_n_n 128 rfl rfl k
  congr 2
  · exact Shape.idx_ext₂ rfl hk
  · exact Shape.idx_ext₂ hk rfl

theorem hz0 : (![0, 0] : Fin 2 → Nat) = fun _ => 0 := by decide

theorem idx_t : ∀ t : Fin grid0.N, cc0_transform_0 (grid0.coords t) = ![t.val, 0] ∧ cc0_transform_1 (grid0.coords t) = ![0, 0] := by
  decide +kernel

def row (t : Fin grid0.N) (p : Fin 5000) : Fin 50000 := ⟨t.val * 5000 + p.val, by have := lt_of_lt_of_eq t.isLt N_0; omega⟩

abbrev rowRect {m : ℕ} (t : Fin grid0.N)
    (inb : ∀ a, cc0_transform_0 (grid0.coords t) a * ![5000, m] a + ![5000, m] a ≤ (⟨2, ![50000, m]⟩ : Shape).size a) : Rect ⟨2, ![50000, m]⟩ :=
  Rect.unit _ _ inb

abbrev allRect {a b : ℕ} (t : Fin grid0.N)
    (inb : ∀ d, cc0_transform_1 (grid0.coords t) d * ![a, b] d + ![a, b] d ≤ (⟨2, ![a, b]⟩ : Shape).size d) : Rect ⟨2, ![a, b]⟩ :=
  Rect.unit _ _ inb

-- Row p of point t's block of rows is row 5000 t + p of the array, and columns are kept.
theorem row_emb {m : ℕ} (t : Fin grid0.N) (inb) (p : Fin 5000) (q : Fin m) : (rowRect t inb).emb (ix2 p q) = ix2 (row t p) q := by
  unfold rowRect; revert inb; rw [(idx_t t).1]; intro _
  refine Shape.idx_ext₂ ?_ ?_
  · show t.val * 5000 + 1 * p.val = t.val * 5000 + p.val; omega
  · show 0 * m + 1 * q.val = q.val; omega

theorem all_emb {a b : ℕ} (t : Fin grid0.N) (inb) (y : (⟨2, ![a, b]⟩ : Shape).Idx) : (allRect t inb).emb y = y := by
  unfold allRect; revert inb; rw [(idx_t t).2]; intro _
  refine Shape.idx_ext₂ ?_ ?_
  · show 0 * a + 1 * (y 0).val = (y 0).val; omega
  · show 0 * b + 1 * (y 1).val = (y 1).val; omega

-- Row r lies in the block of point r / 5000, so the ten blocks of rows cover the array.
theorem row_cover (fl : Fin grid0.N → Bool) (E : Fin grid0.N → S5000x128.Idx ↪ S50000x128.Idx) (hf : ∀ t, fl t = true)
    (hE : ∀ t p q, E t (ix2 p q) = ix2 (row t p) q) (i : S50000x128.Idx) : ∃ t, fl t = true ∧ i ∈ Finset.univ.map (E t) := by
  have h : (i 0).val < 50000 := (i 0).isLt
  exact ⟨⟨(i 0).val / 5000, by rw [N_0]; omega⟩, hf _, Finset.mem_map.2 ⟨ix2 ⟨(i 0).val % 5000, by omega⟩ (i 1), Finset.mem_univ _,
    (hE _ _ _).trans (Shape.idx_ext₂ (by show (i 0).val / 5000 * 5000 + (i 0).val % 5000 = (i 0).val; omega) rfl)⟩⟩

-- What point t leaves from its blocks of the arrays is point t's block of preSpec of the whole arrays.
theorem pre_rows (X W N t b0 b1 b2 b3 j) :
    out0_3 (F := Ideal) (fun y => X ((rowRect t b0).emb y)) (fun y => W ((allRect t b1).emb y)) (fun y => N ((rowRect t b2).emb y)) j
      = preSpec X W N ((rowRect t b3).emb j) := by
  obtain ⟨p, q, rfl⟩ := ix2_surj j
  unfold out0_3
  rw [View.canon_unit_zero hz0, View.ld_unit_zero hz0, View.ld_unit_zero hz0, View.ld_unit_zero hz0, k0_pay1_apply]
  simp only [row_emb, all_emb]
  rfl

variable (V : (c : Dev nD) → (b : Ref sig .tc) → Buf (Elt Ideal) ((c : Thread nD τ).loc b))

theorem arr0_eq (c : Dev nD) :
    (dat0 (F := Ideal) V c).arrAt 3 cfg0.N = preSpec (V c main_arg0) (V c main_arg5) (V c main_v13) :=
  (dat0 V c).arrAt_eq_of_cover 3 _ (fun t _ => funext fun j =>
      (congrFun (after0_3 V c t) j).trans (pre_rows (V c main_arg0) (V c main_arg5) (V c main_v13) t _ _ _ _ j))
    (row_cover _ _ flush0_3 fun t => row_emb t _)

theorem norm_bcast (h1) (h2) (n1 : Vec Ideal S50000 .f32) (r : Fin 50000) (q : Fin 128) :
    broadcastInDim S50000x128 ![0, 1] h1 (broadcastInDim S50000x1 ![0] h2 n1) (ix2 r q)
      = shapeCast S50000x1 n1 shapeCasts_S50000_S50000x1 (ix2 r ⟨0, Nat.one_pos⟩) :=
  ((broadcastInDim_apply _ h1 _ _ (ix2 r ⟨0, Nat.one_pos⟩) (Fin.forall_fin_two.2 ⟨rfl, rfl⟩)).trans
    (broadcastInDim_apply _ h2 n1 _ (ix1 r) (Fin.forall_fin_one.2 rfl))).trans
    (shapeCast_apply n1 _ _ _ (by rw [Shape.rowMajor_val_one, Shape.rowMajor_val_two]; show r.val = r.val * 1 + 0; omega)).symm

theorem refPre_eq (x : Vec Ideal S50000x128 .f32) (w : Vec Ideal S128x128 .f32) (n1 : Vec Ideal S50000 .f32) :
    mulf (Host.dotGeneral (F := Ideal) (φ₁ := .f32) (φ₂ := .f32) Cert.ReferenceIdeal.dot_S50000x128_S128x128_S50000x128_1_0_0_1_n_n none x w)
        (broadcastInDim Cert.ReferenceIdeal.S50000x128 ![0, 1] Cert.ReferenceIdeal.Facts₀.bcast_S50000x1_S50000x128_0_1
          (broadcastInDim Cert.ReferenceIdeal.S50000x1 ![0] Cert.ReferenceIdeal.Facts₀.bcast_S50000_S50000x1_0 n1))
      = preSpec x w (shapeCast S50000x1 n1 shapeCasts_S50000_S50000x1) := funext fun i => by
  obtain ⟨r, q, rfl⟩ := ix2_surj i
  unfold preSpec
  refine (mulf_apply _ _ _).trans (congrArg₂ (· * ·) ((Cert.ReferenceIdeal.Read.val_main_v13_apply x w _).trans
    (Finset.sum_congr rfl fun k _ => ?_)) (norm_bcast _ _ n1 _ _))
  congr 2 <;> exact Shape.idx_ext₂ rfl rfl

end Cert.KernelIdeal.Hand

end
-- ==== Proof.LibAgree.lean ====
import Idealize.ShloMosaic.Lib.StableHlo.Run

namespace Idealize.ShloMosaic.StableHlo

variable {τ : Topo} {sig₁ sig₂ : RefSig} {Val : EltTy → Type}

theorem heq_app {A A' B B' : Type} (hA : A = A') (hB : B = B') {f : A → B} {f' : A' → B'} (hf : HEq f f')
    {a : A} {a' : A'} (ha : HEq a a') : HEq (f a) (f' a') := by
  subst hA hB; cases hf; cases ha; rfl

theorem result_keep {sig : RefSig} {op : HloOp τ sig Val} {y r : Ref sig .tc} (V : Valuation τ sig Val)
    (hw : op.writes = {Proc.devRef .tc y}) (h : r ≠ y) : op.result V (Proc.devRef .tc r) = V (Proc.devRef .tc r) :=
  op.result_of_not_mem V (by rw [hw, Finset.mem_singleton]; exact devRef_ne_of_ne h)

def Agree (P : List (Ref sig₁ .tc × Ref sig₂ .tc)) (V₁ : Valuation τ sig₁ Val) (V₂ : Valuation τ sig₂ Val) : Prop :=
  ∀ p ∈ P, HEq (V₁ (Proc.devRef .tc p.1)) (V₂ (Proc.devRef .tc p.2))

def Sim (P : List (Ref sig₁ .tc × Ref sig₂ .tc)) (ops : List (HloOp τ sig₁ Val)) (ops' : List (HloOp τ sig₂ Val))
    (Q : List (Ref sig₁ .tc × Ref sig₂ .tc)) : Prop :=
  ∀ (V₁ : Valuation τ sig₁ Val) (V₂ : Valuation τ sig₂ Val), Agree P V₁ V₂ → Agree Q (after ops V₁) (after ops' V₂)

variable {P Q : List (Ref sig₁ .tc × Ref sig₂ .tc)} {V₁ : Valuation τ sig₁ Val} {V₂ : Valuation τ sig₂ Val}
  {ops : List (HloOp τ sig₁ Val)} {ops' : List (HloOp τ sig₂ Val)} {op : HloOp τ sig₁ Val} {op' : HloOp τ sig₂ Val}
  {x a b c y : Ref sig₁ .tc} {x' a' b' c' y' : Ref sig₂ .tc}

namespace Agree

theorem nil : Agree (τ := τ) (Val := Val) ([] : List (Ref sig₁ .tc × Ref sig₂ .tc)) V₁ V₂ := fun _ h => absurd h List.not_mem_nil

theorem cons (h : HEq (V₁ (Proc.devRef .tc a)) (V₂ (Proc.devRef .tc a')))
    (t : Agree P V₁ V₂) : Agree ((a, a') :: P) V₁ V₂ := fun p hp => by
  rcases List.mem_cons.mp hp with rfl | hp
  · exact h
  · exact t p hp

theorem get (h : Agree P V₁ V₂) {a : Ref sig₁ .tc} {a' : Ref sig₂ .tc} (hin : (a, a') ∈ P) :
    HEq (V₁ (Proc.devRef .tc a)) (V₂ (Proc.devRef .tc a')) := h (a, a') hin

theorem mono (h : Agree P V₁ V₂) (hQ : Q ⊆ P) : Agree Q V₁ V₂ := fun p hp => h p (hQ hp)

theorem writeL (h : Agree P V₁ V₂) (hw : op.writes = {Proc.devRef .tc y}) (hy : y ∉ P.map Prod.fst) :
    Agree P (op.result V₁) V₂ := fun p hp => by
  rw [result_keep V₁ hw fun e => hy (e ▸ List.mem_map_of_mem (f := Prod.fst) hp)]
  exact h p hp

theorem writeR (h : Agree P V₁ V₂) (hw' : op'.writes = {Proc.devRef .tc y'}) (hy' : y' ∉ P.map Prod.snd) :
    Agree P V₁ (op'.result V₂) := fun p hp => by
  rw [result_keep V₂ hw' fun e => hy' (e ▸ List.mem_map_of_mem (f := Prod.snd) hp)]
  exact h p hp

end Agree

namespace Sim

theorem done (hQ : Q ⊆ P) : Sim (τ := τ) (Val := Val) P [] [] Q := fun _ _ h => h.mono hQ

theorem skipL (hw : op.writes = {Proc.devRef .tc y}) (hy : y ∉ P.map Prod.fst)
    (k : Sim P ops ops' Q) : Sim P (op :: ops) ops' Q := fun _ _ h => k _ _ (h.writeL hw hy)

theorem skipR (hw' : op'.writes = {Proc.devRef .tc y'}) (hy' : y' ∉ P.map Prod.snd)
    (k : Sim P ops ops' Q) : Sim P ops (op' :: ops') Q := fun _ _ h => k _ _ (h.writeR hw' hy')

-- Each builder's rule below is this step with the builder's result equation.
theorem both (hw : op.writes = {Proc.devRef .tc y}) (hw' : op'.writes = {Proc.devRef .tc y'})
    (hy : y ∉ P.map Prod.fst) (hy' : y' ∉ P.map Prod.snd)
    (hres : ∀ V₁ V₂, Agree P V₁ V₂ → HEq (op.result V₁ (Proc.devRef .tc y)) (op'.result V₂ (Proc.devRef .tc y')))
    (k : Sim ((y, y') :: P) ops ops' Q) : Sim P (op :: ops) (op' :: ops') Q :=
  fun V₁ V₂ h => k _ _ (.cons (hres V₁ V₂ h) ((h.writeL hw hy).writeR hw' hy'))

theorem nullary {v : y.ty.Contents Val} {v' : y'.ty.Contents Val} {hy hy'}
    (hv : HEq v v') (hfy : y ∉ P.map Prod.fst) (hfy' : y' ∉ P.map Prod.snd)
    (k : Sim ((y, y') :: P) ops ops' Q) :
    Sim P (StableHlo.nullary (τ := τ) y v hy :: ops) (StableHlo.nullary (τ := τ) y' v' hy' :: ops') Q :=
  both rfl rfl hfy hfy' (fun _ _ _ => by rw [nullary_result, nullary_result]; exact hv) k

theorem unary {f : x.ty.Contents Val → y.ty.Contents Val} {f' : x'.ty.Contents Val → y'.ty.Contents Val} {hx hy hx' hy'}
    (hin : (x, x') ∈ P) (htx : x.ty = x'.ty) (hty : y.ty = y'.ty) (hf : HEq f f')
    (hfy : y ∉ P.map Prod.fst) (hfy' : y' ∉ P.map Prod.snd)
    (k : Sim ((y, y') :: P) ops ops' Q) :
    Sim P (StableHlo.unary (τ := τ) x y f hx hy :: ops) (StableHlo.unary (τ := τ) x' y' f' hx' hy' :: ops') Q :=
  both rfl rfl hfy hfy' (fun _ _ h => by
    rw [unary_result, unary_result]
    exact heq_app (congrArg (BufTy.Contents Val) htx) (congrArg (BufTy.Contents Val) hty) hf (h.get hin)) k

theorem binary {f : a.ty.Contents Val → b.ty.Contents Val → y.ty.Contents Val}
    {f' : a'.ty.Contents Val → b'.ty.Contents Val → y'.ty.Contents Val} {ha hb hy ha' hb' hy'}
    (hina : (a, a') ∈ P) (hinb : (b, b') ∈ P) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.binary (τ := τ) a b y f ha hb hy :: ops) (StableHlo.binary (τ := τ) a' b' y' f' ha' hb' hy' :: ops') Q :=
  both rfl rfl hfy hfy' (fun _ _ h => by
    rw [binary_result, binary_result]
    have hB := congrArg (BufTy.Contents Val) htb
    have hY := congrArg (BufTy.Contents Val) hty
    exact heq_app hB hY
      (heq_app (congrArg (BufTy.Contents Val) hta) (by rw [hB, hY]) hf (h.get hina)) (h.get hinb)) k

theorem ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hinc : (c, c') ∈ P) (hina : (a, a') ∈ P) (hinb : (b, b') ∈ P)
    (htc : c.ty = c'.ty) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.ternary (τ := τ) c a b y f hc ha hb hy :: ops) (StableHlo.ternary (τ := τ) c' a' b' y' f' hc' ha' hb' hy' :: ops') Q :=
  both rfl rfl hfy hfy' (fun _ _ h => by
    rw [ternary_result, ternary_result]
    have hA := congrArg (BufTy.Contents Val) hta
    have hB := congrArg (BufTy.Contents Val) htb
    have hY := congrArg (BufTy.Contents Val) hty
    exact heq_app hB hY
      (heq_app hA (by rw [hB, hY])
        (heq_app (congrArg (BufTy.Contents Val) htc) (by rw [hA, hB, hY]) hf (h.get hinc)) (h.get hina)) (h.get hinb)) k

end Sim

end Idealize.ShloMosaic.StableHlo
-- ==== Proof.Bridge.Host.lean ====
import proofs.«405441_j33243046871479_1_alg».proof.Proof.Gen.KernelIdeal.Launch
import proofs.«405441_j33243046871479_1_alg».proof.Proof.Gen.ReferenceIdeal.Run
import proofs.«405441_j33243046871479_1_alg».proof.Proof.LibAgree
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- The n operations of the reference after its first k: the nine stretches are such slices of the one list.
abbrev cut (k n : Nat) : List (HloOp τ sig (Elt F)) := (Value.ops.drop k).take n

abbrev refA : List (HloOp τ sig (Elt F)) := cut 0 18
abbrev refR0 : List (HloOp τ sig (Elt F)) := cut 18 4
abbrev refC : List (HloOp τ sig (Elt F)) := cut 22 13
abbrev refR1 : List (HloOp τ sig (Elt F)) := cut 35 9
abbrev refR2 : List (HloOp τ sig (Elt F)) := cut 44 4
abbrev refF : List (HloOp τ sig (Elt F)) := cut 48 13
abbrev refR3 : List (HloOp τ sig (Elt F)) := cut 61 9
abbrev refR4 : List (HloOp τ sig (Elt F)) := cut 70 16
abbrev refI : List (HloOp τ sig (Elt F)) := cut 86 19

theorem ops_split : Value.ops (F := F) = refA ++ refR0 ++ refC ++ refR1 ++ refR2 ++ refF ++ refR3 ++ refR4 ++ refI := rfl

end Cert.ReferenceIdeal.Hand

namespace Cert.KernelIdeal.Hand

open Cert.KernelIdeal Cert.KernelIdeal.Gen Idealize.ShloMosaic Idealize.ShloMosaic.TcCoe Idealize.SL.Sem Idealize.ShloMosaic.StableHlo
open Cert.ReferenceIdeal.Hand (refA refR0 refC refR1 refR2 refF refR3 refR4 refI)

def argPairs : List (Ref Cert.KernelIdeal.sig .tc × Ref Cert.ReferenceIdeal.sig .tc) :=
  [(main_arg0, Cert.ReferenceIdeal.main_arg0), (main_arg1, Cert.ReferenceIdeal.main_arg1), (main_arg2, Cert.ReferenceIdeal.main_arg2), (main_arg3, Cert.ReferenceIdeal.main_arg3), (main_arg4, Cert.ReferenceIdeal.main_arg4), (main_arg5, Cert.ReferenceIdeal.main_arg5), (main_arg6, Cert.ReferenceIdeal.main_arg6), (main_arg7, Cert.ReferenceIdeal.main_arg7), (main_arg8, Cert.ReferenceIdeal.main_arg8), (main_arg9, Cert.ReferenceIdeal.main_arg9), (main_arg10, Cert.ReferenceIdeal.main_arg10), (main_arg11, Cert.ReferenceIdeal.main_arg11), (main_arg12, Cert.ReferenceIdeal.main_arg12), (main_arg13, Cert.ReferenceIdeal.main_arg13), (main_arg14, Cert.ReferenceIdeal.main_arg14)]

theorem ops_split : Cert.ReferenceIdeal.Value.ops (F := Ideal) = refA ++ refR0 ++ refC ++ refR1 ++ refR2 ++ refF ++ refR3 ++ refR4 ++ refI :=
  Cert.ReferenceIdeal.Hand.ops_split

theorem simA : Sim argPairs (hostOps0 (F := Ideal)) refA ((main_v12, Cert.ReferenceIdeal.main_v12) :: (main_v9, Cert.ReferenceIdeal.main_v9) :: argPairs) :=
  .nullary .rfl (by decide) (by decide) <| .unary (by decide) rfl rfl .rfl (by decide) (by decide) <| .nullary .rfl (by decide) (by decide) <|
    .unary (by decide) rfl rfl .rfl (by decide) (by decide) <| .unary (by decide) rfl rfl .rfl (by decide) (by decide) <|
    .ternary (by decide) (by decide) (by decide) rfl rfl rfl rfl .rfl (by decide) (by decide) <| .nullary .rfl (by decide) (by decide) <|
    .unary (by decide) rfl rfl .rfl (by decide) (by decide) <| .unary (by decide) rfl rfl .rfl (by decide) (by decide) <|
    .ternary (by decide) (by decide) (by decide) rfl rfl rfl rfl .rfl (by decide) (by decide) <| .nullary .rfl (by decide) (by decide) <|
    .unary (by decide) rfl rfl .rfl (by decide) (by decide) <| .binary (by decide) (by decide) rfl rfl rfl .rfl (by decide) (by decide) <|
    .unary (by decide) rfl rfl .rfl (by decide) (by decide) <| .nullary .rfl (by decide) (by decide) <|
    .unary (by decide) rfl rfl .rfl (by decide) (by decide) <| .binary (by decide) (by decide) rfl rfl rfl .rfl (by decide) (by decide) <|
    .unary (by decide) rfl rfl .rfl (by decide) (by decide) <| .skipL rfl (by decide) <| .done (by decide)

theorem simC : Sim ((main_v14, Cert.ReferenceIdeal.main_v16) :: (main_v12, Cert.ReferenceIdeal.main_v12) :: (main_v9, Cert.ReferenceIdeal.main_v9) :: argPairs) (hostOps1 (F := Ideal)) refC
    ((main_v24, Cert.ReferenceIdeal.main_v26) :: (main_v12, Cert.ReferenceIdeal.main_v12) :: (main_v9, Cert.ReferenceIdeal.main_v9) :: argPairs) :=
  .nullary .rfl (by decide) (by decide) <| .unary (by decide) rfl rfl .rfl (by decide) (by decide) <|
    .binary (by decide) (by decide) rfl rfl rfl .rfl (by decide) (by decide) <| .nullary .rfl (by decide) (by decide) <|
    .unary (by decide) rfl rfl .rfl (by decide) (by decide) <| .binary (by decide) (by decide) rfl rfl rfl .rfl (by decide) (by decide) <|
    .ternary (by decide) (by decide) (by decide) rfl rfl rfl rfl .rfl (by decide) (by decide) <|
    .unary (by decide) rfl rfl .rfl (by decide) (by decide) <| .binary (by decide) (by decide) rfl rfl rfl .rfl (by decide) (by decide) <|
    .nullary .rfl (by decide) (by decide) <| .unary (by decide) rfl rfl .rfl (by decide) (by decide) <|
    .unary (by decide) rfl rfl .rfl (by decide) (by decide) <|
    .ternary (by decide) (by decide) (by decide) rfl rfl rfl rfl .rfl (by decide) (by decide) <| .skipL rfl (by decide) <| .skipL rfl (by decide) <| .done (by decide)

theorem simE : Sim ((main_v27, Cert.ReferenceIdeal.main_v33) :: (main_v12, Cert.ReferenceIdeal.main_v12) :: (main_v9, Cert.ReferenceIdeal.main_v9) :: argPairs) (hostOps2 (F := Ideal)) []
    ((main_v27, Cert.ReferenceIdeal.main_v33) :: (main_v12, Cert.ReferenceIdeal.main_v12) :: (main_v9, Cert.ReferenceIdeal.main_v9) :: argPairs) :=
  Sim.skipL rfl (by decide) (Sim.done (List.Subset.refl _))

theorem simF : Sim ((main_v29, Cert.ReferenceIdeal.main_v37) :: (main_v12, Cert.ReferenceIdeal.main_v12) :: (main_v9, Cert.ReferenceIdeal.main_v9) :: argPairs) (hostOps3 (F := Ideal)) refF
    ((main_v39, Cert.ReferenceIdeal.main_v47) :: (main_v12, Cert.ReferenceIdeal.main_v12) :: argPairs) :=
  .nullary .rfl (by decide) (by decide) <| .unary (by decide) rfl rfl .rfl (by decide) (by decide) <|
    .binary (by decide) (by decide) rfl rfl rfl .rfl (by decide) (by decide) <| .nullary .rfl (by decide) (by decide) <|
    .unary (by decide) rfl rfl .rfl (by decide) (by decide) <| .binary (by decide) (by decide) rfl rfl rfl .rfl (by decide) (by decide) <|
    .ternary (by decide) (by decide) (by decide) rfl rfl rfl rfl .rfl (by decide) (by decide) <|
    .unary (by decide) rfl rfl .rfl (by decide) (by decide) <| .binary (by decide) (by decide) rfl rfl rfl .rfl (by decide) (by decide) <|
    .nullary .rfl (by decide) (by decide) <| .unary (by decide) rfl rfl .rfl (by decide) (by decide) <|
    .unary (by decide) rfl rfl .rfl (by decide) (by decide) <|
    .ternary (by decide) (by decide) (by decide) rfl rfl rfl rfl .rfl (by decide) (by decide) <| .skipL rfl (by decide) <| .skipL rfl (by decide) <| .done (by decide)

theorem simH : Sim ((main_v42, Cert.ReferenceIdeal.main_v54) :: argPairs) (hostOps4 (F := Ideal)) []
    ((main_v42, Cert.ReferenceIdeal.main_v54) :: argPairs) :=
  Sim.skipL rfl (by decide) (Sim.done (List.Subset.refl _))

theorem simI : Sim ((main_v44, Cert.ReferenceIdeal.main_v66) :: argPairs)
    (hostOps5 (F := Ideal) ++ hostOps5_1 ++ hostOps5_2 ++ hostOps5_3 ++ hostOps5_4) refI
    ((main_v59, Cert.ReferenceIdeal.main_v81) :: argPairs) :=
  .binary (by decide) (by decide) rfl rfl rfl .rfl (by decide) (by decide) <|
    .binary (by decide) (by decide) rfl rfl rfl .rfl (by decide) (by decide) <| .unary (by decide) rfl rfl .rfl (by decide) (by decide) <|
    .unary (by decide) rfl rfl .rfl (by decide) (by decide) <| .binary (by decide) (by decide) rfl rfl rfl .rfl (by decide) (by decide) <|
    .nullary .rfl (by decide) (by decide) <| .unary (by decide) rfl rfl .rfl (by decide) (by decide) <|
    .binary (by decide) (by decide) rfl rfl rfl .rfl (by decide) (by decide) <|
    .binary (by decide) (by decide) rfl rfl rfl .rfl (by decide) (by decide) <| .unary (by decide) rfl rfl .rfl (by decide) (by decide) <|
    .unary (by decide) rfl rfl .rfl (by decide) (by decide) <| .binary (by decide) (by decide) rfl rfl rfl .rfl (by decide) (by decide) <|
    .nullary .rfl (by decide) (by decide) <| .unary (by decide) rfl rfl .rfl (by decide) (by decide) <|
    .binary (by decide) (by decide) rfl rfl rfl .rfl (by decide) (by decide) <|
    .binary (by decide) (by decide) rfl rfl rfl .rfl (by decide) (by decide) <| .unary (by decide) rfl rfl .rfl (by decide) (by decide) <|
    .unary (by decide) rfl rfl .rfl (by decide) (by decide) <| .binary (by decide) (by decide) rfl rfl rfl .rfl (by decide) (by decide) <| .done (by decide)

end Cert.KernelIdeal.Hand
-- ==== Proof.Bridge.JoinLib.lean ====
import proofs.«405441_j33243046871479_1_alg».proof.Proof.LibAgree

namespace Idealize.ShloMosaic.StableHlo

variable {τ : Topo} {sig₁ sig₂ : RefSig} {Val : EltTy → Type}

-- The step shared by the five joins: one side runs ops' while the other changes only at y.
theorem Agree.join {P Q : List (Ref sig₁ .tc × Ref sig₂ .tc)} {V₁ V₁' : Valuation τ sig₁ Val} {V₂ : Valuation τ sig₂ Val}
    {ops' : List (HloOp τ sig₂ Val)} {y : Ref sig₁ .tc} {y' : Ref sig₂ .tc}
    (h : Agree P V₁ V₂) (s : Sim P ([] : List (HloOp τ sig₁ Val)) ops' Q)
    (hk : ∀ r, r ≠ y → V₁' (Proc.devRef .tc r) = V₁ (Proc.devRef .tc r)) (hy : y ∉ Q.map Prod.fst)
    (hres : HEq (V₁' (Proc.devRef .tc y)) (after ops' V₂ (Proc.devRef .tc y'))) :
    Agree ((y, y') :: Q) V₁' (after ops' V₂) :=
  .cons hres fun p hp => by
    rw [hk p.1 fun e => hy (e ▸ List.mem_map_of_mem (f := Prod.fst) hp)]
    exact s V₁ V₂ h p hp

end Idealize.ShloMosaic.StableHlo
-- ==== Proof.Bridge.Join0.lean ====
import proofs.«405441_j33243046871479_1_alg».proof.Proof.KI.Chain
import proofs.«405441_j33243046871479_1_alg».proof.Proof.KI.Val0
import proofs.«405441_j33243046871479_1_alg».proof.Proof.Bridge.Host
import proofs.«405441_j33243046871479_1_alg».proof.Proof.Bridge.JoinLib

noncomputable section

namespace Cert.KernelIdeal.Hand

open Cert.KernelIdeal Cert.KernelIdeal.Gen
open Idealize.ShloMosaic Idealize.ShloMosaic.TcCoe
open Idealize.SL.Sem
open Idealize.ShloMosaic.StableHlo
open Cert.ReferenceIdeal.Hand (refA refR0 refC refR1 refR2 refF refR3 refR4 refI)

variable (m : (ℓ : Loc nD τ sig) → Buf (Elt Ideal) ℓ) (c : Dev nD)

theorem hostOps0_v13 (V : Valuation τ sig (Elt Ideal)) :
    (StableHlo.after (hostOps0 (F := Ideal)) V (Proc.devRef .tc main_v13) : Vec Ideal S50000x1 .f32)
      = shapeCast S50000x1 (StableHlo.after (hostOps0 (F := Ideal)) V (Proc.devRef .tc main_v9) : Vec Ideal S50000 .f32) shapeCasts_S50000_S50000x1 := by
  after_results <;> rfl

theorem join0 (V₂ : Valuation τ Cert.ReferenceIdeal.sig (Elt Ideal)) (h : Agree ((main_v12, Cert.ReferenceIdeal.main_v12) :: (main_v9, Cert.ReferenceIdeal.main_v9) :: argPairs) (W1 m c) V₂) :
    Agree ((main_v14, Cert.ReferenceIdeal.main_v16) :: ((main_v12, Cert.ReferenceIdeal.main_v12) :: (main_v9, Cert.ReferenceIdeal.main_v9) :: argPairs)) (W2 m c) (StableHlo.after (refR0 (F := Ideal)) V₂) := by
  refine h.join ?_ (W2_keep m c) (by decide) (heq_of_eq ?_)
  · repeat refine Sim.skipR rfl (by decide) ?_
    exact Sim.done (by decide)
  · refine ((W2_arr m c 3).trans (arr0_eq (V1 m) c)).trans (.trans ?_ (.symm (.trans (by show StableHlo.after [_, _, _, _] _ _ = _; after_results <;> rfl) (refPre_eq _ _ _))))
    exact congr (congrArg₂ preSpec (eq_of_heq (h.get (a := main_arg0) (a' := Cert.ReferenceIdeal.main_arg0) (by decide))) (eq_of_heq (h.get (a := main_arg5) (a' := Cert.ReferenceIdeal.main_arg5) (by decide))))
      ((hostOps0_v13 (W0 m c)).trans (congrArg (shapeCast S50000x1 · shapeCasts_S50000_S50000x1) (eq_of_heq (h.get (a := main_v9) (a' := Cert.ReferenceIdeal.main_v9) (by decide)))))

end Cert.KernelIdeal.Hand

end
-- ==== Proof.KI.Val1.lean ====
import proofs.«405441_j33243046871479_1_alg».proof.Proof.KI.Reg1
import proofs.«405441_j33243046871479_1_alg».proof.Proof.KI.Val0
import Idealize.ShloMosaic.Lib.ValueLayout

noncomputable section

namespace Cert.KernelIdeal.Hand

open Cert.KernelIdeal Cert.KernelIdeal.Gen
open Idealize.ShloMosaic Idealize.ShloMosaic.TcCoe
open Idealize.ShloMosaic.ValueIdx

theorem hz1 : (![0, 0] : Fin 2 → Nat) = fun _ => 0 := hz0

-- Entry (r, q) is the larger of a[r, q] * n[r, 0] + b[0, q] and zero.
def postSpec (a : Vec Ideal S50000x128 .f32) (n : Vec Ideal S50000x1 .f32) (b : Vec Ideal S1x128 .f32) : Vec Ideal S50000x128 .f32 :=
  fun i => max (a i * n (ix2 (i 0) (0 : Fin 1)) + b (ix2 (0 : Fin 1) (i 1))) (Ideal.ofBits .f32 0x00000000#32)

theorem bcol (v : Vec Ideal S5000x1 .f32) (p : Fin 5000) (q : Fin 128) :
    broadcastTo S5000x128 v broadcasts_S5000x1_S5000x128 (ix2 p q) = v (ix2 p (0 : Fin 1)) :=
  broadcastTo_apply v _ _ _ (Fin.forall_fin_two.2 ⟨rfl, rfl⟩)

theorem k1_pay1_apply (x0 : Vec Ideal S5000x128 .f32) (x1 : Vec Ideal S5000x1 .f32) (x2 : Vec Ideal S1x128 .f32) (p : Fin 5000) (q : Fin 128) :
    k1_pay1 x0 x1 x2 (ix2 p q) = max (x0 (ix2 p q) * x1 (ix2 p (0 : Fin 1)) + x2 (ix2 (0 : Fin 1) q)) (Ideal.ofBits .f32 0x00000000#32) := by
  unfold k1_pay1
  simp only [shapeCast_self]
  rw [maximumf_apply, addf_apply, mulf_apply, broadcast_apply, bcol, broadcastTo_1b_ab_apply]
  rfl

-- What point t leaves from its blocks of the arrays is point t's block of postSpec of the whole arrays.
theorem post_rows (A N B t b0 b1 b2 b3 j) :
    out1_3 (F := Ideal) (fun y => A ((rowRect t b0).emb y)) (fun y => N ((rowRect t b1).emb y)) (fun y => B ((allRect t b2).emb y)) j
      = postSpec A N B ((rowRect t b3).emb j) := by
  obtain ⟨p, q, rfl⟩ := ix2_surj j
  unfold out1_3
  rw [View.canon_unit_zero hz0, View.ld_unit_zero hz0, View.ld_unit_zero hz0, View.ld_unit_zero hz0, k1_pay1_apply]
  simp only [row_emb, all_emb]
  rfl

variable (V : (c : Dev nD) → (b : Ref sig .tc) → Buf (Elt Ideal) ((c : Thread nD τ).loc b))

theorem arr1_eq (c : Dev nD) :
    (dat1 (F := Ideal) V c).arrAt 3 cfg1.N = postSpec (V c main_v24) (V c main_v25) (V c main_v26) :=
  (dat1 V c).arrAt_eq_of_cover 3 _ (fun t _ => funext fun j =>
      (congrFun (after1_3 V c t) j).trans (post_rows (V c main_v24) (V c main_v25) (V c main_v26) t _ _ _ _ j))
    (row_cover _ _ flush1_3 fun t => row_emb t _)

theorem refPost_eq (a : Vec Ideal Cert.ReferenceIdeal.S50000x128 .f32) (nd1 : Vec Ideal Cert.ReferenceIdeal.S50000 .f32) (b1 : Vec Ideal Cert.ReferenceIdeal.S128 .f32) :
    maximumf (addf (mulf a (broadcastInDim Cert.ReferenceIdeal.S50000x128 ![0, 1] Cert.ReferenceIdeal.Gen.bcast_S50000x1_S50000x128_0_1
                            (broadcastInDim Cert.ReferenceIdeal.S50000x1 ![0] Cert.ReferenceIdeal.Gen.bcast_S50000_S50000x1_0 nd1)))
                   (broadcastInDim Cert.ReferenceIdeal.S50000x128 ![0, 1] Cert.ReferenceIdeal.Gen.bcast_S1x128_S50000x128_0_1
                            (broadcastInDim Cert.ReferenceIdeal.S1x128 ![1] Cert.ReferenceIdeal.Gen.bcast_S128_S1x128_1 b1)))
             (broadcastInDim Cert.ReferenceIdeal.S50000x128 ![] Cert.ReferenceIdeal.Gen.bcast_S_S50000x128 (constant (F := Ideal) Cert.ReferenceIdeal.S_ .f32 0x00000000#32))
      = postSpec a (shapeCast S50000x1 nd1 shapeCasts_S50000_S50000x1) (shapeCast S1x128 b1 shapeCasts_S128_S1x128) := funext fun i => by
  obtain ⟨r, q, rfl⟩ := ix2_surj i
  unfold postSpec
  rw [maximumf_apply, addf_apply, mulf_apply]
  exact congrArg₂ max (congrArg₂ (· + ·) (congrArg (_ * ·) (norm_bcast _ _ nd1 _ _))
      ((broadcastInDim_apply _ _ _ _ (ix2 (0 : Fin 1) q) (Fin.forall_fin_two.2 ⟨rfl, rfl⟩)).trans
        ((broadcastInDim_apply _ _ b1 _ (ix1 q) (Fin.forall_fin_one.2 rfl)).trans (shapeCast_a_1a_apply b1 _ 0 _).symm)))
    (broadcastInDim_apply _ _ _ _ (fun ax => ax.elim0) fun ax => ax.elim0)

end Cert.KernelIdeal.Hand

end
-- ==== Proof.Bridge.Join1.lean ====
import proofs.«405441_j33243046871479_1_alg».proof.Proof.KI.Chain
import proofs.«405441_j33243046871479_1_alg».proof.Proof.KI.Val1
import proofs.«405441_j33243046871479_1_alg».proof.Proof.Bridge.Host
import proofs.«405441_j33243046871479_1_alg».proof.Proof.Bridge.JoinLib

noncomputable section

namespace Cert.KernelIdeal.Hand

open Cert.KernelIdeal Cert.KernelIdeal.Gen
open Idealize.ShloMosaic Idealize.ShloMosaic.TcCoe
open Idealize.SL.Sem
open Idealize.ShloMosaic.StableHlo
open Cert.ReferenceIdeal.Hand (refA refR0 refC refR1 refR2 refF refR3 refR4 refI)

variable (m : (ℓ : Loc nD τ sig) → Buf (Elt Ideal) ℓ) (c : Dev nD)

theorem hostOps1_v25 (V : Valuation τ sig (Elt Ideal)) :
    (StableHlo.after (hostOps1 (F := Ideal)) V (Proc.devRef .tc main_v25) : Vec Ideal S50000x1 .f32)
      = shapeCast S50000x1 (StableHlo.after (hostOps1 (F := Ideal)) V (Proc.devRef .tc main_v12) : Vec Ideal S50000 .f32) shapeCasts_S50000_S50000x1 := by
  after_results <;> rfl

theorem hostOps1_v26 (V : Valuation τ sig (Elt Ideal)) :
    (StableHlo.after (hostOps1 (F := Ideal)) V (Proc.devRef .tc main_v26) : Vec Ideal S1x128 .f32)
      = shapeCast S1x128 (StableHlo.after (hostOps1 (F := Ideal)) V (Proc.devRef .tc main_arg6) : Vec Ideal S128 .f32) shapeCasts_S128_S1x128 := by
  after_results <;> rfl

theorem join1 (V₂ : Valuation τ Cert.ReferenceIdeal.sig (Elt Ideal)) (h : Agree ((main_v24, Cert.ReferenceIdeal.main_v26) :: (main_v12, Cert.ReferenceIdeal.main_v12) :: (main_v9, Cert.ReferenceIdeal.main_v9) :: argPairs) (W3 m c) V₂) :
    Agree ((main_v27, Cert.ReferenceIdeal.main_v33) :: ((main_v12, Cert.ReferenceIdeal.main_v12) :: (main_v9, Cert.ReferenceIdeal.main_v9) :: argPairs)) (W4 m c) (StableHlo.after (refR1 (F := Ideal)) V₂) := by
  refine h.join ?_ (W4_keep m c) (by decide) (heq_of_eq ?_)
  · repeat refine Sim.skipR rfl (by decide) ?_
    exact Sim.done (by decide)
  · refine ((W4_arr m c 3).trans (arr1_eq (V3 m) c)).trans (.trans ?_ (.symm (.trans (by show StableHlo.after [_, _, _, _, _, _, _, _, _] _ _ = _; after_results <;> rfl) (refPost_eq _ _ _))))
    exact congr (congr (congrArg postSpec (eq_of_heq (h.get (a := main_v24) (a' := Cert.ReferenceIdeal.main_v26) (by decide))))
      ((hostOps1_v25 (W2 m c)).trans (congrArg (shapeCast S50000x1 · shapeCasts_S50000_S50000x1) (eq_of_heq (h.get (a := main_v12) (a' := Cert.ReferenceIdeal.main_v12) (by decide))))))
      ((hostOps1_v26 (W2 m c)).trans (congrArg (shapeCast S1x128 · shapeCasts_S128_S1x128) (eq_of_heq (h.get (a := main_arg6) (a' := Cert.ReferenceIdeal.main_arg6) (by decide)))))

end Cert.KernelIdeal.Hand

end
-- ==== Proof.KI.Val2.lean ====
import proofs.«405441_j33243046871479_1_alg».proof.Proof.KI.Val0
import proofs.«405441_j33243046871479_1_alg».proof.Proof.KI.Reg2

noncomputable section

namespace Cert.KernelIdeal.Hand

open Cert.KernelIdeal Cert.KernelIdeal.Gen
open Idealize.ShloMosaic Idealize.ShloMosaic.TcCoe
open Idealize.ShloMosaic.ValueIdx

theorem out2_eq (x0 x1 x2) : out2_3 (F := Ideal) x0 x1 x2 = out0_3 x0 x1 x2 := by
  unfold out2_3 out0_3 k2_pay1 k0_pay1
  simp only [shapeCast_self]

variable (V : (c : Dev nD) → (b : Ref sig .tc) → Buf (Elt Ideal) ((c : Thread nD τ).loc b))

theorem arr2_eq (c : Dev nD) :
    (dat2 (F := Ideal) V c).arrAt 3 cfg2.N = preSpec (V c main_v27) (V c main_arg7) (V c main_v28) :=
  (dat2 V c).arrAt_eq_of_cover 3 _ (fun t _ => funext fun j =>
      (congrFun ((after2_3 V c t).trans (out2_eq _ _ _)) j).trans (pre_rows (V c main_v27) (V c main_arg7) (V c main_v28) t _ _ _ _ j))
    (row_cover _ _ flush2_3 fun t => row_emb t _)

end Cert.KernelIdeal.Hand

end
-- ==== Proof.Bridge.Join2.lean ====
import proofs.«405441_j33243046871479_1_alg».proof.Proof.KI.Chain
import proofs.«405441_j33243046871479_1_alg».proof.Proof.KI.Val2
import proofs.«405441_j33243046871479_1_alg».proof.Proof.Bridge.Host
import proofs.«405441_j33243046871479_1_alg».proof.Proof.Bridge.JoinLib

noncomputable section

namespace Cert.KernelIdeal.Hand

open Cert.KernelIdeal Cert.KernelIdeal.Gen
open Idealize.ShloMosaic Idealize.ShloMosaic.TcCoe
open Idealize.SL.Sem
open Idealize.ShloMosaic.StableHlo
open Cert.ReferenceIdeal.Hand (refA refR0 refC refR1 refR2 refF refR3 refR4 refI)

variable (m : (ℓ : Loc nD τ sig) → Buf (Elt Ideal) ℓ) (c : Dev nD)

theorem hostOps2_v28 (V : Valuation τ sig (Elt Ideal)) :
    (StableHlo.after (hostOps2 (F := Ideal)) V (Proc.devRef .tc main_v28) : Vec Ideal S50000x1 .f32)
      = shapeCast S50000x1 (StableHlo.after (hostOps2 (F := Ideal)) V (Proc.devRef .tc main_v9) : Vec Ideal S50000 .f32) shapeCasts_S50000_S50000x1 := by
  after_results <;> rfl

theorem join2 (V₂ : Valuation τ Cert.ReferenceIdeal.sig (Elt Ideal)) (h : Agree ((main_v27, Cert.ReferenceIdeal.main_v33) :: ((main_v12, Cert.ReferenceIdeal.main_v12) :: (main_v9, Cert.ReferenceIdeal.main_v9) :: argPairs)) (W5 m c) V₂) :
    Agree ((main_v29, Cert.ReferenceIdeal.main_v37) :: ((main_v12, Cert.ReferenceIdeal.main_v12) :: (main_v9, Cert.ReferenceIdeal.main_v9) :: argPairs)) (W6 m c) (StableHlo.after (refR2 (F := Ideal)) V₂) := by
  refine h.join ?_ (W6_keep m c) (by decide) (heq_of_eq ?_)
  · repeat refine Sim.skipR rfl (by decide) ?_
    exact Sim.done (by decide)
  · refine ((W6_arr m c 3).trans (arr2_eq (V5 m) c)).trans (.trans ?_ (.symm (.trans (by show StableHlo.after [_, _, _, _] _ _ = _; after_results <;> rfl) (refPre_eq _ _ _))))
    exact congr (congrArg₂ preSpec (eq_of_heq (h.get (a := main_v27) (a' := Cert.ReferenceIdeal.main_v33) (by decide))) (eq_of_heq (h.get (a := main_arg7) (a' := Cert.ReferenceIdeal.main_arg7) (by decide))))
      ((hostOps2_v28 (W4 m c)).trans (congrArg (shapeCast S50000x1 · shapeCasts_S50000_S50000x1) (eq_of_heq (h.get (a := main_v9) (a' := Cert.ReferenceIdeal.main_v9) (by decide)))))

end Cert.KernelIdeal.Hand

end
-- ==== Proof.KI.Val3.lean ====
import proofs.«405441_j33243046871479_1_alg».proof.Proof.KI.Reg3
import proofs.«405441_j33243046871479_1_alg».proof.Proof.KI.Val1

noncomputable section

namespace Cert.KernelIdeal.Hand

open Cert.KernelIdeal Cert.KernelIdeal.Gen
open Idealize.ShloMosaic Idealize.ShloMosaic.TcCoe

variable (V : (c : Dev nD) → (b : Ref sig .tc) → Buf (Elt Ideal) ((c : Thread nD τ).loc b))

theorem arr3_eq (c : Dev nD) :
    (dat3 (F := Ideal) V c).arrAt 3 cfg3.N = postSpec (V c main_v39) (V c main_v40) (V c main_v41) :=
  (dat3 V c).arrAt_eq_of_cover 3 _ (fun t _ => funext fun j =>
      (congrFun (after3_3 V c t) j).trans (post_rows (V c main_v39) (V c main_v40) (V c main_v41) t _ _ _ _ j))
    (row_cover _ _ flush3_3 fun t => row_emb t _)

end Cert.KernelIdeal.Hand

end
-- ==== Proof.Bridge.Join3.lean ====
import proofs.«405441_j33243046871479_1_alg».proof.Proof.KI.Chain
import proofs.«405441_j33243046871479_1_alg».proof.Proof.KI.Val3
import proofs.«405441_j33243046871479_1_alg».proof.Proof.Bridge.Host
import proofs.«405441_j33243046871479_1_alg».proof.Proof.Bridge.JoinLib

noncomputable section

namespace Cert.KernelIdeal.Hand

open Cert.KernelIdeal Cert.KernelIdeal.Gen
open Idealize.ShloMosaic Idealize.ShloMosaic.TcCoe
open Idealize.SL.Sem
open Idealize.ShloMosaic.StableHlo
open Cert.ReferenceIdeal.Hand (refA refR0 refC refR1 refR2 refF refR3 refR4 refI)

variable (m : (ℓ : Loc nD τ sig) → Buf (Elt Ideal) ℓ) (c : Dev nD)

theorem hostOps3_v40 (V : Valuation τ sig (Elt Ideal)) :
    (StableHlo.after (hostOps3 (F := Ideal)) V (Proc.devRef .tc main_v40) : Vec Ideal S50000x1 .f32)
      = shapeCast S50000x1 (StableHlo.after (hostOps3 (F := Ideal)) V (Proc.devRef .tc main_v12) : Vec Ideal S50000 .f32) shapeCasts_S50000_S50000x1 := by
  after_results <;> rfl

theorem hostOps3_v41 (V : Valuation τ sig (Elt Ideal)) :
    (StableHlo.after (hostOps3 (F := Ideal)) V (Proc.devRef .tc main_v41) : Vec Ideal S1x128 .f32)
      = shapeCast S1x128 (StableHlo.after (hostOps3 (F := Ideal)) V (Proc.devRef .tc main_arg8) : Vec Ideal S128 .f32) shapeCasts_S128_S1x128 := by
  after_results <;> rfl

theorem join3 (V₂ : Valuation τ Cert.ReferenceIdeal.sig (Elt Ideal)) (h : Agree ((main_v39, Cert.ReferenceIdeal.main_v47) :: (main_v12, Cert.ReferenceIdeal.main_v12) :: argPairs) (W7 m c) V₂) :
    Agree ((main_v42, Cert.ReferenceIdeal.main_v54) :: argPairs) (W8 m c) (StableHlo.after (refR3 (F := Ideal)) V₂) := by
  refine h.join ?_ (W8_keep m c) (by decide) (heq_of_eq ?_)
  · repeat refine Sim.skipR rfl (by decide) ?_
    exact Sim.done (by decide)
  · refine ((W8_arr m c 3).trans (arr3_eq (V7 m) c)).trans (.trans ?_ (.symm (.trans (by show StableHlo.after [_, _, _, _, _, _, _, _, _] _ _ = _; after_results <;> rfl) (refPost_eq _ _ _))))
    exact congr (congr (congrArg postSpec (eq_of_heq (h.get (a := main_v39) (a' := Cert.ReferenceIdeal.main_v47) (by decide))))
      ((hostOps3_v40 (W6 m c)).trans (congrArg (shapeCast S50000x1 · shapeCasts_S50000_S50000x1) (eq_of_heq (h.get (a := main_v12) (a' := Cert.ReferenceIdeal.main_v12) (by decide))))))
      ((hostOps3_v41 (W6 m c)).trans (congrArg (shapeCast S1x128 · shapeCasts_S128_S1x128) (eq_of_heq (h.get (a := main_arg8) (a' := Cert.ReferenceIdeal.main_arg8) (by decide)))))

end Cert.KernelIdeal.Hand

end
-- ==== Proof.KI.PoolMath.lean ====
import proofs.«405441_j33243046871479_1_alg».proof.Proof.Gen.KernelIdeal.Skeleton
import proofs.«405441_j33243046871479_1_alg».proof.ReferenceIdeal
import Idealize.ShloMosaic.PureOps.Ideal.Laws
import Idealize.ShloMosaic.Lib.ValueIdxRank1
import Idealize.ShloMosaic.Lib.IdealHost
import Idealize.ShloMosaic.Lib.Pipeline.Value

noncomputable section

namespace Cert.KernelIdeal.Hand

open Cert.KernelIdeal Cert.KernelIdeal.Gen Idealize.ShloMosaic
open Idealize.ShloMosaic.ValueIdx
open scoped BigOperators
open Cert.ReferenceIdeal (scatter_S64x128_S50000x1_S50000x128_1_0_0_1 scatter_S64_S50000x1_S50000_n_0_0_1)

def hot (wd : BitVec 32) (g : Fin 64) : EReal := if wd = BitVec.ofNat 32 g.val then 1 else 0

theorem hot_mul (wd : BitVec 32) (g : Fin 64) (x : EReal) : hot wd g * x = if wd = BitVec.ofNat 32 g.val then x else 0 := by
  unfold hot; rw [ite_mul, one_mul, zero_mul]

theorem pay1_apply (g : Fin 64) (q : Fin 128) : k4_pay1 (F := Ideal) (ix2 g q) = 0 := by
  unfold k4_pay1
  rw [shapeCast_self]
  exact Ideal.ofBits_zero_f32
theorem pay2_apply (g : Fin 64) : k4_pay2 (F := Ideal) (ix2 g (0 : Fin 1)) = 0 := by
  unfold k4_pay2
  rw [shapeCast_self]
  exact Ideal.ofBits_zero_f32

theorem pay3_apply (v3 : Vec Ideal S5000x1 .i32) (k : Fin 5000) (g : Fin 64) :
    k4_pay3 (F := Ideal) v3 (ix2 k g) = hot (v3 (ix2 k (0 : Fin 1))) g := by
  unfold k4_pay3
  rw [shapeCast_self]
  show (((BitVec.setWidth 32 (BitVec.ofBool (broadcastTo S5000x64 v3 broadcasts_S5000x1_S5000x64 (ix2 k g)
    == iota .tc S5000x64 32 [1] iota_S5000x64_d1_w32 (ix2 k g)))).toInt : ℝ) : EReal) = _
  rw [iota_single_apply, broadcastTo_apply v3 _ _ (ix2 k (0 : Fin 1)) (fun a => by fin_cases a <;> rfl),
    show ∀ b : Bool, (BitVec.setWidth 32 (BitVec.ofBool b)).toInt = if b then 1 else 0 from by decide]
  by_cases h : v3 (ix2 k (0 : Fin 1)) = BitVec.ofNat 32 g.val <;> simp [hot, h]

theorem matmul_acc_apply {φ₁ φ₂ : FTy} (lhs : FVec Ideal S5000x64 φ₁) (rhs : FVec Ideal S5000x128 φ₂) (g : Fin 64) (q : Fin 128) :
    FloatOps.matmul dot_S5000x64_S5000x128_S64x128_0_0_1_1_n_n none lhs rhs (constant S64x128 .f32 0x00000000#32) (ix2 g q)
      = ∑ k : Fin 5000, lhs (ix2 k g) * rhs (ix2 k q) := by
  rw [Ideal.matmul_constant_zero_apply, ← Equiv.sum_comp (contrEquiv1 _ 5000 rfl rfl).symm]
  exact Finset.sum_congr rfl fun k _ => congrArg₂ _ (congrArg lhs (funext fun a => by fin_cases a <;> rfl)) (congrArg rhs (funext fun a => by fin_cases a <;> rfl))

theorem matmul_cnt_apply {φ₁ φ₂ : FTy} (lhs : FVec Ideal S5000x64 φ₁) (rhs : FVec Ideal S5000x1 φ₂) (g : Fin 64) :
    FloatOps.matmul dot_S5000x64_S5000x1_S64x1_0_0_1_1_n_n none lhs rhs (constant S64x1 .f32 0x00000000#32) (ix2 g (0 : Fin 1))
      = ∑ k : Fin 5000, lhs (ix2 k g) * rhs (ix2 k (0 : Fin 1)) := by
  rw [Ideal.matmul_constant_zero_apply, ← Equiv.sum_comp (contrEquiv1 _ 5000 rfl rfl).symm]
  exact Finset.sum_congr rfl fun k _ => congrArg₂ _ (congrArg lhs (funext fun a => by fin_cases a <;> rfl)) (congrArg rhs (funext fun a => by fin_cases a <;> rfl))

theorem pay4_apply (v3 : Vec Ideal S5000x1 .i32) (v11 : Vec Ideal S5000x128 .f32) (v17 : Vec Ideal S64x128 .f32) (g : Fin 64) (q : Fin 128) :
    k4_pay4 (F := Ideal) v3 v11 v17 (ix2 g q) = v17 (ix2 g q) + ∑ k : Fin 5000, hot (v3 (ix2 k (0 : Fin 1))) g * v11 (ix2 k q) := by
  unfold k4_pay4
  rw [shapeCast_self, shapeCast_self, addf_apply]
  simp only [matmul]
  rw [matmul_acc_apply]
  simp only [pay3_apply, truncf_apply]

theorem pay5_apply (v3 : Vec Ideal S5000x1 .i32) (v22 : Vec Ideal S64x1 .f32) (g : Fin 64) :
    k4_pay5 (F := Ideal) v3 v22 (ix2 g (0 : Fin 1)) = v22 (ix2 g (0 : Fin 1)) + ∑ k : Fin 5000, hot (v3 (ix2 k (0 : Fin 1))) g := by
  unfold k4_pay5
  rw [shapeCast_self, addf_apply]
  simp only [matmul]
  rw [matmul_cnt_apply]
  simp only [pay3_apply, broadcast_apply]
  show _ + ∑ k : Fin 5000, _ * Ideal.ofBits .bf16 0x3F80#16 = _
  simp only [Ideal.ofBits_one_bf16, mul_one]

theorem pay6_apply (v30 : Vec Ideal S64x128 .f32) (v31 : Vec Ideal S64x1 .f32) (g : Fin 64) (q : Fin 128) :
    k4_pay6 (F := Ideal) v30 v31 (ix2 g q) = Ideal.div (v30 (ix2 g q)) (max (v31 (ix2 g (0 : Fin 1))) 1) := by
  unfold k4_pay6
  rw [divf_apply, broadcastTo_apply _ _ _ (ix2 g (0 : Fin 1)) (fun a => by fin_cases a <;> rfl), maximumf_apply, broadcast_apply]
  show Ideal.div _ (max _ (Ideal.ofBits .f32 0x3F800000#32)) = _
  rw [Ideal.ofBits_one_f32]

section Pool

variable (h : Vec Ideal S50000x128 .f32) (gid : Vec Ideal S50000x1 .i32)

def poolSpec : Vec Ideal S64x128 .f32 :=
  fun j => Ideal.div (∑ n : Fin 50000, hot (gid (ix2 n (0 : Fin 1))) (j 0) * h (ix2 n (j 1)))
    (max (∑ n : Fin 50000, hot (gid (ix2 n (0 : Fin 1))) (j 0)) 1)

theorem poolSpec_apply (g : Fin 64) (q : Fin 128) :
    poolSpec h gid (ix2 g q) = Ideal.div (∑ n : Fin 50000, hot (gid (ix2 n (0 : Fin 1))) g * h (ix2 n q))
      (max (∑ n : Fin 50000, hot (gid (ix2 n (0 : Fin 1))) g) 1) := rfl

def blkX (t : ℕ) : Vec Ideal S5000x128 .f32 :=
  fun j => h (ix2 (⟨(5000 * t + (j 0).val) % 50000, Nat.mod_lt _ (by decide)⟩ : Fin 50000) (j 1))
def blkG (t : ℕ) : Vec Ideal S5000x1 .i32 :=
  fun j => gid (ix2 (⟨(5000 * t + (j 0).val) % 50000, Nat.mod_lt _ (by decide)⟩ : Fin 50000) (0 : Fin 1))

theorem blkX_apply (t : ℕ) (ht : t < 10) (k : Fin 5000) (q : Fin 128) :
    blkX h t (ix2 k q) = h (ix2 (⟨5000 * t + k.val, by have := k.isLt; omega⟩ : Fin 50000) q) :=
  congrArg (fun n => h (ix2 n q)) (Fin.ext (show (5000 * t + k.val) % 50000 = _ from Nat.mod_eq_of_lt (by omega)))
theorem blkG_apply (t : ℕ) (ht : t < 10) (k : Fin 5000) :
    blkG gid t (ix2 k (0 : Fin 1)) = gid (ix2 (⟨5000 * t + k.val, by have := k.isLt; omega⟩ : Fin 50000) (0 : Fin 1)) :=
  congrArg (fun n => gid (ix2 n 0)) (Fin.ext (show (5000 * t + k.val) % 50000 = _ from Nat.mod_eq_of_lt (by omega)))

def accAt : ℕ → Vec Ideal S64x128 .f32
  | 0 => k4_pay4 (F := Ideal) (blkG gid 0) (blkX h 0) (k4_pay1 (F := Ideal))
  | t + 1 => k4_pay4 (F := Ideal) (blkG gid (t + 1)) (blkX h (t + 1)) (accAt t)
def cntAt : ℕ → Vec Ideal S64x1 .f32
  | 0 => k4_pay5 (F := Ideal) (blkG gid 0) (k4_pay2 (F := Ideal))
  | t + 1 => k4_pay5 (F := Ideal) (blkG gid (t + 1)) (cntAt t)

theorem accAt_zero :
    accAt h gid 0 = k4_pay4 (F := Ideal) (blkG gid 0) (blkX h 0) (k4_pay1 (F := Ideal)) := rfl
theorem accAt_succ (t : ℕ) :
    accAt h gid (t + 1) = k4_pay4 (F := Ideal) (blkG gid (t + 1)) (blkX h (t + 1)) (accAt h gid t) := rfl
theorem cntAt_zero :
    cntAt gid 0 = k4_pay5 (F := Ideal) (blkG gid 0) (k4_pay2 (F := Ideal)) := rfl
theorem cntAt_succ (t : ℕ) :
    cntAt gid (t + 1) = k4_pay5 (F := Ideal) (blkG gid (t + 1)) (cntAt gid t) := rfl

theorem accAt_apply (t : ℕ) (g : Fin 64) (q : Fin 128) :
    accAt h gid t (ix2 g q)
      = ∑ s ∈ Finset.range (t + 1), ∑ k : Fin 5000, hot (blkG gid s (ix2 k (0 : Fin 1))) g * blkX h s (ix2 k q) := by
  induction t with
  | zero => rw [accAt_zero, pay4_apply, pay1_apply, zero_add, Finset.sum_range_one]
  | succ t ih => rw [accAt_succ, pay4_apply, ih, Finset.sum_range_succ _ (t + 1)]
theorem cntAt_apply (t : ℕ) (g : Fin 64) :
    cntAt gid t (ix2 g (0 : Fin 1))
      = ∑ s ∈ Finset.range (t + 1), ∑ k : Fin 5000, hot (blkG gid s (ix2 k (0 : Fin 1))) g := by
  induction t with
  | zero => rw [cntAt_zero, pay5_apply, pay2_apply, zero_add, Finset.sum_range_one]
  | succ t ih => rw [cntAt_succ, pay5_apply, ih, Finset.sum_range_succ _ (t + 1)]

-- Row 5000 s + k is the image of (s, k) under the numbering of pairs, so ten blocks of 5000 rows are all the rows.
theorem sum_blocks (f : Fin 50000 → EReal) :
    ∑ s ∈ Finset.range 10, ∑ k : Fin 5000, f ⟨(5000 * s + k.val) % 50000, Nat.mod_lt _ (by decide)⟩ = ∑ n : Fin 50000, f n := by
  rw [← Fin.sum_univ_eq_sum_range (fun s => ∑ k : Fin 5000, f ⟨(5000 * s + k.val) % 50000, Nat.mod_lt _ (by decide)⟩),
    ← Fintype.sum_prod_type', ← (finProdFinEquiv (m := 10) (n := 5000)).sum_comp f]
  exact Finset.sum_congr rfl fun p _ => congrArg f (Fin.ext (by
    show (5000 * p.1.val + p.2.val) % 50000 = p.2.val + 5000 * p.1.val
    omega))

theorem fold_eq :
    k4_pay6 (F := Ideal) (accAt h gid 9) (cntAt gid 9) = poolSpec h gid := by
  funext j
  obtain ⟨g, q, rfl⟩ : ∃ (g : Fin 64) (q : Fin 128), j = ix2 g q := ⟨j 0, j 1, eq_ix2 j⟩
  rw [pay6_apply, accAt_apply, cntAt_apply]
  exact congrArg₂ Ideal.div (sum_blocks fun n => hot (gid (ix2 n (0 : Fin 1))) g * h (ix2 n q))
    (congrArg (max · 1) (sum_blocks fun n => hot (gid (ix2 n (0 : Fin 1))) g))

end Pool

theorem toInt_eq_iff (wd : BitVec 32) (g : Fin 64) : wd.toInt = (g.val : ℤ) ↔ wd = BitVec.ofNat 32 g.val := by
  have e : (BitVec.ofNat 32 g.val).toInt = (g.val : ℤ) := by revert g; decide
  exact ⟨fun h => BitVec.eq_of_toInt_eq (h.trans e.symm), fun h => h ▸ e⟩

theorem resultIdx?_iff {s si u : Shape} (d : ScatterDims s si u) {w : ℕ} (j : u.Idx) (idx : IVec si w) (i : s.Idx) :
    d.resultIdx? j idx = some i ↔ ∀ a, d.start j idx a + d.window j a = (i a).val := by
  unfold ScatterDims.resultIdx?
  split
  · rename_i h
    rw [Option.some.injEq]
    exact ⟨fun e a => e ▸ (Int.toNat_of_nonneg (h a).1).symm, fun e => funext fun a => Fin.ext (by show (_ : ℤ).toNat = _; rw [e a, Int.toNat_natCast])⟩
  · rename_i h
    exact ⟨nofun, fun e => absurd (fun a => by rw [e a]; exact ⟨Int.natCast_nonneg _, Int.ofNat_lt.2 (i a).isLt⟩) h⟩

section Reference
variable [Cert.ReferenceIdeal.Facts₀] (idx : IVec Cert.ReferenceIdeal.S50000x1 32) (n : Fin 50000) (g : Fin 64)

theorem sums_resultIdx_iff (q q' : Fin 128) :
    scatter_S64x128_S50000x1_S50000x128_1_0_0_1.resultIdx? (ix2 n q) idx = some (ix2 g q') ↔ q = q' ∧ (idx (ix2 n (0 : Fin 1))).toInt = (g.val : ℤ) := by
  rw [resultIdx?_iff, Fin.forall_fin_two, Fin.ext_iff, show scatter_S64x128_S50000x1_S50000x128_1_0_0_1.start (ix2 n q) idx 0 = (idx (ix2 n (0 : Fin 1))).toInt from
    congrArg (fun i => (idx i).toInt) (funext fun b => by fin_cases b <;> rfl)]
  show _ + ((0 : ℕ) : ℤ) = (g.val : ℤ) ∧ (0 : ℤ) + (q.val : ℤ) = (q'.val : ℤ) ↔ _
  omega

theorem scatter_sums_apply (x : FVec Ideal Cert.ReferenceIdeal.S64x128 .f32) (upd : FVec Ideal Cert.ReferenceIdeal.S50000x128 .f32) (q : Fin 128) :
    Host.scatterAdd scatter_S64x128_S50000x1_S50000x128_1_0_0_1 x idx upd (ix2 g q) = x (ix2 g q) + ∑ n : Fin 50000, hot (idx (ix2 n (0 : Fin 1))) g * upd (ix2 n q) := by
  show _ + ∑ j ∈ Finset.univ.filter (fun j => scatter_S64x128_S50000x1_S50000x128_1_0_0_1.resultIdx? j idx = some (ix2 g q)), upd j = _
  rw [Finset.sum_filter, sum_idx2]
  simp only [sums_resultIdx_iff, ite_and, Finset.sum_ite_eq', Finset.mem_univ, if_true, toInt_eq_iff, hot_mul]

theorem cnt_resultIdx_iff :
    scatter_S64_S50000x1_S50000_n_0_0_1.resultIdx? (ix1 n) idx = some (ix1 g) ↔ (idx (ix2 n (0 : Fin 1))).toInt = (g.val : ℤ) := by
  rw [resultIdx?_iff, Fin.forall_fin_one, show scatter_S64_S50000x1_S50000_n_0_0_1.start (ix1 n) idx 0 = (idx (ix2 n (0 : Fin 1))).toInt from
    congrArg (fun i => (idx i).toInt) (funext fun b => by fin_cases b <;> rfl)]
  show _ + ((0 : ℕ) : ℤ) = (g.val : ℤ) ↔ _
  omega

theorem scatter_cnt_apply (x : FVec Ideal Cert.ReferenceIdeal.S64 .f32) (upd : FVec Ideal Cert.ReferenceIdeal.S50000 .f32) :
    Host.scatterAdd scatter_S64_S50000x1_S50000_n_0_0_1 x idx upd (ix1 g) = x (ix1 g) + ∑ n : Fin 50000, hot (idx (ix2 n (0 : Fin 1))) g * upd (ix1 n) := by
  show _ + ∑ j ∈ Finset.univ.filter (fun j => scatter_S64_S50000x1_S50000_n_0_0_1.resultIdx? j idx = some (ix1 g)), upd j = _
  rw [Finset.sum_filter, ← idxEquiv1.symm.sum_comp]
  simp only [show ∀ a : Fin 50000, idxEquiv1.symm a = ix1 a from fun _ => rfl, cnt_resultIdx_iff, toInt_eq_iff, hot_mul]

theorem idcol_cast_apply (gid1 : IVec S50000 32) :
    shapeCast S50000x1 gid1 shapeCasts_S50000_S50000x1 (ix2 n (0 : Fin 1)) = gid1 (ix1 n) :=
  shapeCast_apply gid1 _ _ (ix1 n) (by rw [Shape.rowMajor_val_one, Shape.rowMajor_val_two]; show n.val = n.val * 1 + 0; omega)

theorem refPool_eq (h : Vec Ideal S50000x128 .f32) (gid1 : Vec Ideal S50000 .i32) :
    Host.divf
      (Host.scatterAdd scatter_S64x128_S50000x1_S50000x128_1_0_0_1
        (broadcastInDim Cert.ReferenceIdeal.S64x128 ![] Cert.ReferenceIdeal.Facts₀.bcast_S_S64x128 (constant (F := Ideal) Cert.ReferenceIdeal.S_ .f32 0x00000000#32))
        (broadcastInDim Cert.ReferenceIdeal.S50000x1 ![0] Cert.ReferenceIdeal.Facts₀.bcast_S50000_S50000x1_0 gid1)
        h)
      (broadcastInDim Cert.ReferenceIdeal.S64x128 ![0, 1] Cert.ReferenceIdeal.Facts₀.bcast_S64x1_S64x128_0_1
        (broadcastInDim Cert.ReferenceIdeal.S64x1 ![0] Cert.ReferenceIdeal.Facts₀.bcast_S64_S64x1_0
          (maximumf
            (Host.scatterAdd scatter_S64_S50000x1_S50000_n_0_0_1
              (broadcastInDim Cert.ReferenceIdeal.S64 ![] Cert.ReferenceIdeal.Facts₀.bcast_S_S64 (constant (F := Ideal) Cert.ReferenceIdeal.S_ .f32 0x00000000#32))
              (broadcastInDim Cert.ReferenceIdeal.S50000x1 ![0] Cert.ReferenceIdeal.Facts₀.bcast_S50000_S50000x1_0 gid1)
              (broadcastInDim Cert.ReferenceIdeal.S50000 ![] Cert.ReferenceIdeal.Facts₀.bcast_S_S50000 (constant (F := Ideal) Cert.ReferenceIdeal.S_ .f32 0x3F800000#32)))
            (broadcastInDim Cert.ReferenceIdeal.S64 ![] Cert.ReferenceIdeal.Facts₀.bcast_S_S64 (constant (F := Ideal) Cert.ReferenceIdeal.S_ .f32 0x3F800000#32)))))
      = poolSpec h (shapeCast S50000x1 gid1 shapeCasts_S50000_S50000x1) := by
  funext j
  obtain ⟨g, q, rfl⟩ : ∃ (g : Fin 64) (q : Fin 128), j = ix2 g q := ⟨j 0, j 1, eq_ix2 j⟩
  rw [hostDivf_apply, scatter_sums_apply, poolSpec_apply, broadcastInDim_apply _ _ _ _ (ix2 g (0 : Fin 1)) (fun a => by fin_cases a <;> rfl),
    broadcastInDim_apply _ _ _ _ (ix1 g) (fun a => by fin_cases a <;> rfl), maximumf_apply, scatter_cnt_apply]
  have hb : ∀ n : Fin 50000, broadcastInDim Cert.ReferenceIdeal.S50000x1 ![0] Cert.ReferenceIdeal.Facts₀.bcast_S50000_S50000x1_0 gid1 (ix2 n (0 : Fin 1)) = gid1 (ix1 n) :=
    fun n => broadcastInDim_apply _ _ gid1 _ (ix1 n) (fun a => by fin_cases a <;> rfl)
  show Ideal.div (Ideal.ofBits .f32 0x00000000#32 + _) (max (Ideal.ofBits .f32 0x00000000#32 + ∑ x : Fin 50000, _ * Ideal.ofBits .f32 0x3F800000#32) (Ideal.ofBits .f32 0x3F800000#32)) = _
  simp only [hb, idcol_cast_apply, Ideal.ofBits_zero_f32, Ideal.ofBits_one_f32, zero_add, mul_one]

end Reference
end Cert.KernelIdeal.Hand
-- ==== Proof.KI.Val4.lean ====
import proofs.«405441_j33243046871479_1_alg».proof.Proof.KI.Reg4
import Idealize.ShloMosaic.Lib.ValueIdx
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx

section Pieces

variable {F : FTy → Type} [FloatOps F] (c : Dev nD) (i : grid4.Coords) (arg1 : Memref sig .tc .vmem S5000x128 .f32) (harg1 : arg1.IsWhole) (arg2 : Memref sig .tc .vmem S5000x1 .i32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole)
  (x0 : Vec F S5000x128 .f32) (x1 : Vec F S5000x1 .i32) (xs0 : Vec F S64x128 .f32) (xs1 : Vec F S64x1 .f32)

theorem val4_hz : (![0, 0] : Fin 2 → Nat) = fun _ => 0 := funext fun a => by fin_cases a <;> rfl

theorem val4_B (hc0 : ¬cond4_0 i) (hc1 : ¬cond4_1 i) :
    sout4_B_0 c i arg1 harg1 arg2 harg2 arg3 harg3 arg4 harg4 arg5 harg5 hc0 hc1 x0 x1 xs0 xs1 = k4_pay4 x1 x0 xs0
    ∧ sout4_B_1 c i arg1 harg1 arg2 harg2 arg3 harg3 arg4 harg4 arg5 harg5 hc0 hc1 x0 x1 xs0 xs1 = k4_pay5 x1 xs1 := by
  unfold sout4_B_0 sout4_B_1
  rw [View.read_writes_eq_canon _ _ _ (fun _ => scover4_B_0 ..), View.read_writes_eq_canon _ _ _ (fun _ => scover4_B_1 ..)]
  unfold kernelRun4_B
  dsimp only
  sl_unfold_words
  simp only [View.canon_unit_zero (S := S64x128) val4_hz, View.canon_unit_zero (S := S64x1) val4_hz, View.readAt_eq_ld, harg1.read_unread, harg2.read_unread, harg4.read_unread, harg5.read_unread, View.ld_unit_zero (S := S5000x128) val4_hz, View.ld_unit_zero (S := S5000x1) val4_hz, View.ld_unit_zero (S := S64x128) val4_hz, View.ld_unit_zero (S := S64x1) val4_hz, and_self]

theorem val4_C (hc0 : ¬cond4_0 i) (hc1 : cond4_1 i) :
    sout4_C_0 c i arg1 harg1 arg2 harg2 arg3 harg3 arg4 harg4 arg5 harg5 hc0 hc1 x0 x1 xs0 xs1 = k4_pay4 x1 x0 xs0
    ∧ sout4_C_1 c i arg1 harg1 arg2 harg2 arg3 harg3 arg4 harg4 arg5 harg5 hc0 hc1 x0 x1 xs0 xs1 = k4_pay5 x1 xs1
    ∧ out4_C_2 c i arg1 harg1 arg2 harg2 arg3 harg3 arg4 harg4 arg5 harg5 hc0 hc1 x0 x1 xs0 xs1 = k4_pay6 (k4_pay4 x1 x0 xs0) (k4_pay5 x1 xs1) := by
  unfold sout4_C_0 sout4_C_1 out4_C_2
  rw [View.read_writes_eq_canon _ _ _ (fun _ => scover4_C_0 ..), View.read_writes_eq_canon _ _ _ (fun _ => scover4_C_1 ..), View.read_writes_eq_canon _ _ _ (fun _ => cover4_C_2 ..)]
  unfold kernelRun4_C
  dsimp only
  sl_unfold_words
  simp only [View.canon_unit_zero (S := S64x128) val4_hz, View.canon_unit_zero (S := S64x1) val4_hz, View.readAt_eq_ld, harg1.read_unread, harg2.read_unread, harg4.read_unread, harg5.read_unread, View.ld_unit_zero (S := S5000x128) val4_hz, View.ld_unit_zero (S := S5000x1) val4_hz, View.ld_unit_zero (S := S64x128) val4_hz, View.ld_unit_zero (S := S64x1) val4_hz, View.readCov_unit_zero (S := S64x128) _ val4_hz, View.readCov_unit_zero (S := S64x1) _ val4_hz, and_self]

theorem val4_A (hc0 : cond4_0 i) (hc1 : ¬cond4_1 i) :
    sout4_A_0 c i arg1 harg1 arg2 harg2 arg3 harg3 arg4 harg4 arg5 harg5 hc0 hc1 x0 x1 = k4_pay4 x1 x0 k4_pay1
    ∧ sout4_A_1 c i arg1 harg1 arg2 harg2 arg3 harg3 arg4 harg4 arg5 harg5 hc0 hc1 x0 x1 = k4_pay5 x1 k4_pay2 := by
  unfold sout4_A_0 sout4_A_1
  rw [View.read_writes_eq_canon _ _ _ (fun _ => scover4_A_0 ..), View.read_writes_eq_canon _ _ _ (fun _ => scover4_A_1 ..)]
  unfold kernelRun4_A
  dsimp only
  sl_unfold_words
  simp only [View.canon_cons_unit_zero (S := S64x128) val4_hz, View.canon_cons_unit_zero (S := S64x1) val4_hz, View.readCov_unit_zero (S := S64x128) _ val4_hz, View.readCov_unit_zero (S := S64x1) _ val4_hz, View.readAt_eq_ld, harg1.read_unread, harg2.read_unread, View.ld_unit_zero (S := S5000x128) val4_hz, View.ld_unit_zero (S := S5000x1) val4_hz, and_self]

end Pieces

variable (V : (c : Dev nD) → (b : Ref sig .tc) → Buf (Elt Ideal) ((c : Thread nD τ).loc b)) (c : Dev nD)

abbrev xblk4 (t : Fin cfg4.N) : Vec Ideal S5000x128 .f32 := iblk4 V c 0 t
abbrev gblk4 (t : Fin cfg4.N) : Vec Ideal S5000x1 .i32 := iblk4 V c 1 t

theorem val4_idx : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

theorem xblk4_apply (t : Fin cfg4.N) (k : Fin 5000) (q : Fin 128) :
    xblk4 V c t (ix2 k q) = (V c main_v42 : Vec Ideal S50000x128 .f32) (ix2 ⟨5000 * t.val + k.val, by have := t.isLt; have : cfg4.N = 10 := N_4; omega⟩ q) := by
  obtain ⟨e0, e1, -⟩ := val4_idx t
  refine congrArg (V c main_v42) (funext fun a => Fin.ext ?_)
  fin_cases a
  · show win4_0.index t 0 * 5000 + 1 * k.val = 5000 * t.val + k.val; omega
  · show win4_0.index t 1 * 128 + 1 * q.val = q.val; omega

theorem gblk4_apply (t : Fin cfg4.N) (k : Fin 5000) :
    gblk4 V c t (ix2 k 0) = (V c main_v43 : Vec Ideal S50000x1 .i32) (ix2 ⟨5000 * t.val + k.val, by have := t.isLt; have : cfg4.N = 10 := N_4; omega⟩ 0) := by
  obtain ⟨-, -, e0, e1⟩ := val4_idx t
  refine congrArg (V c main_v43) (funext fun a => Fin.ext ?_)
  fin_cases a
  · show win4_1.index t 0 * 5000 + 1 * k.val = 5000 * t.val + k.val; omega
  · show win4_1.index t 1 * 1 + 1 * 0 = 0; omega

def sumsRun : (n : ℕ) → n < cfg4.N → Vec Ideal S64x128 .f32
  | 0, h => k4_pay4 (F := Ideal) (gblk4 V c ⟨0, h⟩) (xblk4 V c ⟨0, h⟩) (k4_pay1 (F := Ideal))
  | n + 1, h => k4_pay4 (F := Ideal) (gblk4 V c ⟨n + 1, h⟩) (xblk4 V c ⟨n + 1, h⟩) (sumsRun n (Nat.lt_of_succ_lt h))

def cntsRun : (n : ℕ) → n < cfg4.N → Vec Ideal S64x1 .f32
  | 0, h => k4_pay5 (F := Ideal) (gblk4 V c ⟨0, h⟩) (k4_pay2 (F := Ideal))
  | n + 1, h => k4_pay5 (F := Ideal) (gblk4 V c ⟨n + 1, h⟩) (cntsRun n (Nat.lt_of_succ_lt h))

theorem sumsRun_zero (h : 0 < cfg4.N) :
    sumsRun V c 0 h = k4_pay4 (F := Ideal) (gblk4 V c ⟨0, h⟩) (xblk4 V c ⟨0, h⟩) (k4_pay1 (F := Ideal)) := by rw [sumsRun]
theorem sumsRun_succ (n : ℕ) (h : n + 1 < cfg4.N) :
    sumsRun V c (n + 1) h = k4_pay4 (F := Ideal) (gblk4 V c ⟨n + 1, h⟩) (xblk4 V c ⟨n + 1, h⟩) (sumsRun V c n (Nat.lt_of_succ_lt h)) := by rw [sumsRun]
theorem cntsRun_zero (h : 0 < cfg4.N) :
    cntsRun V c 0 h = k4_pay5 (F := Ideal) (gblk4 V c ⟨0, h⟩) (k4_pay2 (F := Ideal)) := by rw [cntsRun]
theorem cntsRun_succ (n : ℕ) (h : n + 1 < cfg4.N) :
    cntsRun V c (n + 1) h = k4_pay5 (F := Ideal) (gblk4 V c ⟨n + 1, h⟩) (cntsRun V c n (Nat.lt_of_succ_lt h)) := by rw [cntsRun]

theorem outsAt4_sums_cnts : ∀ (n : ℕ) (hn : n < cfg4.N),
    (outsAt4 V c n hn).2.1 = sumsRun V c n hn ∧ (outsAt4 V c n hn).2.2 = cntsRun V c n hn
  | 0, h => by
    rw [sumsRun_zero, cntsRun_zero, outsAt4_A V c ⟨0, h⟩ rfl (by decide : ¬0 % 10 = 9)]
    dsimp only
    exact val4_A (F := Ideal) ..
  | n + 1, h => by
    have hN : cfg4.N = 10 := N_4
    have ih := outsAt4_sums_cnts n (Nat.lt_of_succ_lt h)
    have h0 : ¬(⟨n + 1, h⟩ : Fin cfg4.N).val % 10 = 0 := by dsimp only; omega
    rw [sumsRun_succ, cntsRun_succ, ← ih.1, ← ih.2]
    by_cases h1 : (⟨n + 1, h⟩ : Fin cfg4.N).val % 10 = 9
    · rw [outsAt4_C V c ⟨n + 1, h⟩ h0 h1]
      dsimp only
      exact ⟨(val4_C (F := Ideal) ..).1, (val4_C (F := Ideal) ..).2.1⟩
    · rw [outsAt4_B V c ⟨n + 1, h⟩ h0 h1]
      dsimp only
      exact val4_B (F := Ideal) ..

theorem outsAt4_quot : ∀ (n : ℕ) (hn : n < cfg4.N), n % 10 = 9 →
    (outsAt4 V c n hn).1 = k4_pay6 (F := Ideal) (sumsRun V c n hn) (cntsRun V c n hn)
  | 0, _, h9 => by omega
  | n + 1, h, h1 => by
    have ih := outsAt4_sums_cnts V c n (Nat.lt_of_succ_lt h)
    rw [sumsRun_succ, cntsRun_succ, ← ih.1, ← ih.2, outsAt4_C V c ⟨n + 1, h⟩ (by dsimp only; omega) h1]
    dsimp only
    exact (val4_C (F := Ideal) ..).2.2

abbrev result4 : Buf (Elt Ideal) ((c : Thread nD τ).loc main_v44) :=
  k4_pay6 (F := Ideal) (sumsRun V c 9 (by rw [show cfg4.N = 10 from N_4]; decide)) (cntsRun V c 9 (by rw [show cfg4.N = 10 from N_4]; decide))

theorem val4_blk_whole (R : Buf (Elt Ideal) ((c : Thread nD τ).loc main_v44)) :
    (cfg4.win 2).cut (grid4.coords t4_9) R = ((cfg4.win 2).blk t4_9).view.read (Elt Ideal) R := by
  have hz : (fun a => win4_2.index t4_9 a * main_v44.ty.shape.size a) = fun _ => 0 := funext fun a => by fin_cases a <;> decide
  exact (Memref.read_access_unit_zero (Elt Ideal) main_v44 hz (fun a => by rw [congrFun hz a]; simp) R).symm

theorem val4_flushed (t : Fin cfg4.N) (hf : (cfg4.win 2).flush t = true) :
    (dat4 V c).flushed 2 t = ((cfg4.win 2).blk t).view.read (Elt Ideal) (result4 V c) := by
  obtain rfl : t = t4_9 := Fin.ext (show t.val = 9 by have := (flush4_2 t).mp hf; have := t.isLt; have : cfg4.N = 10 := N_4; omega)
  show (cfg4.win 2).cut (grid4.coords t4_9) ((dat4 V c).after 2 t4_9) = _
  rw [after4_2, outsAt4_quot V c t4_9.val t4_9.isLt rfl]
  exact val4_blk_whole c (result4 V c)

theorem arr4_run : (dat4 (F := Ideal) V c).arrAt 2 cfg4.N
    = k4_pay6 (F := Ideal) (sumsRun V c 9 (by rw [show cfg4.N = 10 from N_4]; decide)) (cntsRun V c 9 (by rw [show cfg4.N = 10 from N_4]; decide)) :=
  (dat4 V c).arrAt_eq_of_cover 2 (result4 V c) (val4_flushed V c) fun i =>
    ⟨t4_9, (flush4_2 t4_9).mpr rfl, by
      show i ∈ ((View.whole main_v44).slice (win4_2.rect t4_9)).set
      rw [View.set_slice_whole, Rect.mem_set_unit]
      intro a
      have h0 : (i 0 : Nat) < 64 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 64 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

end Cert.KernelIdeal.Hand
-- ==== Proof.KI.Val4Spec.lean ====
import proofs.«405441_j33243046871479_1_alg».proof.Proof.KI.Val4
import proofs.«405441_j33243046871479_1_alg».proof.Proof.KI.PoolMath

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable (V : (c : Dev nD) → (b : Ref sig .tc) → Buf (Elt Ideal) ((c : Thread nD τ).loc b)) (c : Dev nD)

theorem xblk4_eq_blkX (n : ℕ) (hn : n < cfg4.N) : xblk4 V c ⟨n, hn⟩ = blkX (V c main_v42) n := by
  funext j
  obtain ⟨k, q, rfl⟩ : ∃ (k : Fin 5000) (q : Fin 128), j = ix2 k q := ⟨j 0, j 1, eq_ix2 j⟩
  rw [xblk4_apply, blkX_apply _ _ (lt_of_lt_of_eq hn N_4)]

theorem gblk4_eq_blkG (n : ℕ) (hn : n < cfg4.N) : gblk4 V c ⟨n, hn⟩ = blkG (V c main_v43) n := by
  funext j
  obtain ⟨k, z, rfl⟩ : ∃ (k : Fin 5000) (z : Fin 1), j = ix2 k z := ⟨j 0, j 1, eq_ix2 j⟩
  rw [Subsingleton.elim z 0, gblk4_apply, blkG_apply _ _ (lt_of_lt_of_eq hn N_4)]

theorem sumsRun_eq_accAt : ∀ (n : ℕ) (hn : n < cfg4.N), sumsRun V c n hn = accAt (V c main_v42) (V c main_v43) n
  | 0, h => by rw [sumsRun_zero, accAt_zero, xblk4_eq_blkX, gblk4_eq_blkG]
  | n + 1, h => by rw [sumsRun_succ, accAt_succ, xblk4_eq_blkX, gblk4_eq_blkG, sumsRun_eq_accAt n]

theorem cntsRun_eq_cntAt : ∀ (n : ℕ) (hn : n < cfg4.N), cntsRun V c n hn = cntAt (V c main_v43) n
  | 0, h => by rw [cntsRun_zero, cntAt_zero, gblk4_eq_blkG]
  | n + 1, h => by rw [cntsRun_succ, cntAt_succ, gblk4_eq_blkG, cntsRun_eq_cntAt n]

theorem arr4_eq : (dat4 (F := Ideal) V c).arrAt 2 cfg4.N = poolSpec (V c main_v42) (V c main_v43) := by
  rw [arr4_run, sumsRun_eq_accAt, cntsRun_eq_cntAt, fold_eq]

end Cert.KernelIdeal.Hand
-- ==== Proof.Bridge.Join4.lean ====
import proofs.«405441_j33243046871479_1_alg».proof.Proof.KI.Chain
import proofs.«405441_j33243046871479_1_alg».proof.Proof.KI.PoolMath
import proofs.«405441_j33243046871479_1_alg».proof.Proof.KI.Val4Spec
import proofs.«405441_j33243046871479_1_alg».proof.Proof.Bridge.Host
import proofs.«405441_j33243046871479_1_alg».proof.Proof.Bridge.JoinLib

noncomputable section

namespace Cert.KernelIdeal.Hand

open Cert.KernelIdeal Cert.KernelIdeal.Gen
open Idealize.ShloMosaic Idealize.ShloMosaic.TcCoe
open Idealize.SL.Sem
open Idealize.ShloMosaic.StableHlo
open Cert.ReferenceIdeal.Hand (refA refR0 refC refR1 refR2 refF refR3 refR4 refI)

variable (m : (ℓ : Loc nD τ sig) → Buf (Elt Ideal) ℓ) (c : Dev nD)

theorem hostOps4_v43 (V : Valuation τ sig (Elt Ideal)) :
    (StableHlo.after (hostOps4 (F := Ideal)) V (Proc.devRef .tc main_v43) : Vec Ideal S50000x1 .i32)
      = shapeCast S50000x1 (StableHlo.after (hostOps4 (F := Ideal)) V (Proc.devRef .tc main_arg3) : Vec Ideal S50000 .i32) shapeCasts_S50000_S50000x1 := by
  after_results <;> rfl

theorem join4 (V₂ : Valuation τ Cert.ReferenceIdeal.sig (Elt Ideal))
    (h : Agree ((main_v42, Cert.ReferenceIdeal.main_v54) :: argPairs) (W9 m c) V₂) :
    Agree ((main_v44, Cert.ReferenceIdeal.main_v66) :: argPairs) (W10 m c) (StableHlo.after (refR4 (F := Ideal)) V₂) := by
  refine h.join ?_ (W10_keep m c) (by decide) (heq_of_eq ?_)
  · repeat refine Sim.skipR rfl (by decide) ?_
    exact Sim.done (by decide)
  · refine ((W10_arr m c 2).trans (arr4_eq (V9 m) c)).trans (.trans ?_ (.symm (.trans (by show StableHlo.after [_, _, _, _, _, _, _, _, _, _, _, _, _, _, _, _] _ _ = _; after_results_simp <;> rfl) (refPool_eq _ _))))
    exact congr (congrArg poolSpec (eq_of_heq (h.get (a := main_v42) (a' := Cert.ReferenceIdeal.main_v54) (by decide))))
      ((hostOps4_v43 (W8 m c)).trans (congrArg (shapeCast S50000x1 · shapeCasts_S50000_S50000x1) (eq_of_heq (h.get (a := main_arg3) (a' := Cert.ReferenceIdeal.main_arg3) (by decide)))))

end Cert.KernelIdeal.Hand

end
-- ==== Proof.Bridge.Final.lean ====
import proofs.«405441_j33243046871479_1_alg».proof.Proof.Bridge.Join0
import proofs.«405441_j33243046871479_1_alg».proof.Proof.Bridge.Join1
import proofs.«405441_j33243046871479_1_alg».proof.Proof.Bridge.Join2
import proofs.«405441_j33243046871479_1_alg».proof.Proof.Bridge.Join3
import proofs.«405441_j33243046871479_1_alg».proof.Proof.Bridge.Join4

noncomputable section

namespace Cert.KernelIdeal.Hand

open Cert.KernelIdeal Cert.KernelIdeal.Gen
open Idealize.ShloMosaic Idealize.ShloMosaic.TcCoe
open Idealize.SL.Sem
open Idealize.ShloMosaic.StableHlo
open Cert.ReferenceIdeal.Hand (refA refR0 refC refR1 refR2 refF refR3 refR4 refI)

theorem final_agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hargs : Agree argPairs (W0 m c) (fun b => m' (c, b))) :
    Agree ((main_v59, Cert.ReferenceIdeal.main_v81) :: argPairs) (W15 m c)
      (StableHlo.after (Cert.ReferenceIdeal.Value.ops (F := Ideal)) (fun b => m' (c, b))) := by
  have a := simI _ _ (join4 m c _ (simH _ _ (join3 m c _ (simF _ _ (join2 m c _ (simE _ _ (join1 m c _ (simC _ _ (join0 m c _ (simA _ _ hargs))))))))))
  rw [ops_split]
  simp only [StableHlo.after_append] at a ⊢
  exact a

end Cert.KernelIdeal.Hand

end
-- ==== Proof.lean ====
import proofs.«405441_j33243046871479_1_alg».proof.Defs
import proofs.«405441_j33243046871479_1_alg».proof.Proof.Gen.Kernel
import proofs.«405441_j33243046871479_1_alg».proof.Proof.Gen.KernelIdeal
import proofs.«405441_j33243046871479_1_alg».proof.Proof.Gen.ReferenceIdeal
import proofs.«405441_j33243046871479_1_alg».proof.Proof.Gen.Pre_finite_inputs
import proofs.«405441_j33243046871479_1_alg».proof.Proof.Gen.ReferenceIdeal.Run
import proofs.«405441_j33243046871479_1_alg».proof.Proof.K.Run
import proofs.«405441_j33243046871479_1_alg».proof.Proof.KI.Run
import proofs.«405441_j33243046871479_1_alg».proof.Proof.Bridge.Final
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two programs end at the same result because, item by item, they leave equal values in every pair of corresponding arrays. -/
theorem algebraic : Cert.algebraic_KernelIdeal_ReferenceIdeal := by
  intro m ρ m' ρ' _ hagree
  refine ⟨fun c => Cert.KernelIdeal.Hand.W15 m c (Proc.devRef .tc Cert.KernelIdeal.main_v59), Cert.KernelIdeal.Hand.run_result m ρ, ?_⟩
  have hA : ∀ c, Agree Cert.KernelIdeal.Hand.argPairs (Cert.KernelIdeal.Hand.W0 m c) (launchContents m' c) := fun c => by
    obtain ⟨h0, h1, h2, h3, h4, h5, h6, h7, h8, h9, h10, h11, h12, h13, h14⟩ := hagree c
    unfold Cert.KernelIdeal.Hand.argPairs
    exact (Agree.cons (heq_of_eq h0).symm (Agree.cons (heq_of_eq h1).symm (Agree.cons (heq_of_eq h2).symm (Agree.cons (heq_of_eq h3).symm (Agree.cons (heq_of_eq h4).symm (Agree.cons (heq_of_eq h5).symm (Agree.cons (heq_of_eq h6).symm (Agree.cons (heq_of_eq h7).symm (Agree.cons (heq_of_eq h8).symm (Agree.cons (heq_of_eq h9).symm (Agree.cons (heq_of_eq h10).symm (Agree.cons (heq_of_eq h11).symm (Agree.cons (heq_of_eq h12).symm (Agree.cons (heq_of_eq h13).symm (Agree.cons (heq_of_eq h14).symm Agree.nil)))))))))))))))
  refine (θ_run Cert.ReferenceIdeal.defs _ _).mono (fun r h c => ?_)
    (run_seq Cert.ReferenceIdeal.Value.scopedRefs_eq Cert.ReferenceIdeal.Value.scopedSems_eq (Cert.ReferenceIdeal.defs (F := Ideal))
      (Cert.ReferenceIdeal.main (F := Ideal)) (fun _ => Cert.ReferenceIdeal.Value.ops) Cert.ReferenceIdeal.Value.main_eq
      (fun _ => Cert.ReferenceIdeal.Value.ops_sub) m' ρ')
  have hF := Cert.KernelIdeal.Hand.final_agree m m' c (hA c)
  obtain ⟨h0, h1, h2, h3, h4, h5, h6, h7, h8, h9, h10, h11, h12, h13, h14⟩ := hagree c
  exact ⟨(h c _).trans (eq_of_heq (hF.get (a := Cert.KernelIdeal.main_v59) (a' := Cert.ReferenceIdeal.main_v81) (List.Mem.head _))).symm,
    (h c _).trans ((eq_of_heq (hF.get (a := Cert.KernelIdeal.main_arg0) (a' := Cert.ReferenceIdeal.main_arg0) (List.mem_cons_of_mem _ (by decide)))).symm.trans ((Cert.KernelIdeal.Hand.W15_kept m c Cert.KernelIdeal.main_arg0 (by decide)).trans h0.symm)),
    (h c _).trans ((eq_of_heq (hF.get (a := Cert.KernelIdeal.main_arg1) (a' := Cert.ReferenceIdeal.main_arg1) (List.mem_cons_of_mem _ (by decide)))).symm.trans ((Cert.KernelIdeal.Hand.W15_kept m c Cert.KernelIdeal.main_arg1 (by decide)).trans h1.symm)),
    (h c _).trans ((eq_of_heq (hF.get (a := Cert.KernelIdeal.main_arg2) (a' := Cert.ReferenceIdeal.main_arg2) (List.mem_cons_of_mem _ (by decide)))).symm.trans ((Cert.KernelIdeal.Hand.W15_kept m c Cert.KernelIdeal.main_arg2 (by decide)).trans h2.symm)),
    (h c _).trans ((eq_of_heq (hF.get (a := Cert.KernelIdeal.main_arg3) (a' := Cert.ReferenceIdeal.main_arg3) (List.mem_cons_of_mem _ (by decide)))).symm.trans ((Cert.KernelIdeal.Hand.W15_kept m c Cert.KernelIdeal.main_arg3 (by decide)).trans h3.symm)),
    (h c _).trans ((eq_of_heq (hF.get (a := Cert.KernelIdeal.main_arg4) (a' := Cert.ReferenceIdeal.main_arg4) (List.mem_cons_of_mem _ (by decide)))).symm.trans ((Cert.KernelIdeal.Hand.W15_kept m c Cert.KernelIdeal.main_arg4 (by decide)).trans h4.symm)),
    (h c _).trans ((eq_of_heq (hF.get (a := Cert.KernelIdeal.main_arg5) (a' := Cert.ReferenceIdeal.main_arg5) (List.mem_cons_of_mem _ (by decide)))).symm.trans ((Cert.KernelIdeal.Hand.W15_kept m c Cert.KernelIdeal.main_arg5 (by decide)).trans h5.symm)),
    (h c _).trans ((eq_of_heq (hF.get (a := Cert.KernelIdeal.main_arg6) (a' := Cert.ReferenceIdeal.main_arg6) (List.mem_cons_of_mem _ (by decide)))).symm.trans ((Cert.KernelIdeal.Hand.W15_kept m c Cert.KernelIdeal.main_arg6 (by decide)).trans h6.symm)),
    (h c _).trans ((eq_of_heq (hF.get (a := Cert.KernelIdeal.main_arg7) (a' := Cert.ReferenceIdeal.main_arg7) (List.mem_cons_of_mem _ (by decide)))).symm.trans ((Cert.KernelIdeal.Hand.W15_kept m c Cert.KernelIdeal.main_arg7 (by decide)).trans h7.symm)),
    (h c _).trans ((eq_of_heq (hF.get (a := Cert.KernelIdeal.main_arg8) (a' := Cert.ReferenceIdeal.main_arg8) (List.mem_cons_of_mem _ (by decide)))).symm.trans ((Cert.KernelIdeal.Hand.W15_kept m c Cert.KernelIdeal.main_arg8 (by decide)).trans h8.symm)),
    (h c _).trans ((eq_of_heq (hF.get (a := Cert.KernelIdeal.main_arg9) (a' := Cert.ReferenceIdeal.main_arg9) (List.mem_cons_of_mem _ (by decide)))).symm.trans ((Cert.KernelIdeal.Hand.W15_kept m c Cert.KernelIdeal.main_arg9 (by decide)).trans h9.symm)),
    (h c _).trans ((eq_of_heq (hF.get (a := Cert.KernelIdeal.main_arg10) (a' := Cert.ReferenceIdeal.main_arg10) (List.mem_cons_of_mem _ (by decide)))).symm.trans ((Cert.KernelIdeal.Hand.W15_kept m c Cert.KernelIdeal.main_arg10 (by decide)).trans h10.symm)),
    (h c _).trans ((eq_of_heq (hF.get (a := Cert.KernelIdeal.main_arg11) (a' := Cert.ReferenceIdeal.main_arg11) (List.mem_cons_of_mem _ (by decide)))).symm.trans ((Cert.KernelIdeal.Hand.W15_kept m c Cert.KernelIdeal.main_arg11 (by decide)).trans h11.symm)),
    (h c _).trans ((eq_of_heq (hF.get (a := Cert.KernelIdeal.main_arg12) (a' := Cert.ReferenceIdeal.main_arg12) (List.mem_cons_of_mem _ (by decide)))).symm.trans ((Cert.KernelIdeal.Hand.W15_kept m c Cert.KernelIdeal.main_arg12 (by decide)).trans h12.symm)),
    (h c _).trans ((eq_of_heq (hF.get (a := Cert.KernelIdeal.main_arg13) (a' := Cert.ReferenceIdeal.main_arg13) (List.mem_cons_of_mem _ (by decide)))).symm.trans ((Cert.KernelIdeal.Hand.W15_kept m c Cert.KernelIdeal.main_arg13 (by decide)).trans h13.symm)),
    (h c _).trans ((eq_of_heq (hF.get (a := Cert.KernelIdeal.main_arg14) (a' := Cert.ReferenceIdeal.main_arg14) (List.mem_cons_of_mem _ (by decide)))).symm.trans ((Cert.KernelIdeal.Hand.W15_kept m c Cert.KernelIdeal.main_arg14 (by decide)).trans h14.symm))⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
